-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S256x128 : Shape := ⟨2, ![256, 128]⟩
abbrev S2x128x128 : Shape := ⟨3, ![2, 128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part2 {F : FTy → Type} [FloatOps F] (main_arg7 : IVec S800000 32) (main_arg8 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg7 main_v34
  let main_c_13 : IVec S_ 32 := constantI S_ 32 100000#32
  let main_v36 : IVec S800000 32 := broadcastInDim S800000 ![] bcast_S_S800000 main_c_13
  let main_v37 : IVec S800000 1 := cmpi .slt main_arg7 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  let main_c_15 : IVec S_ 32 := constantI S_ 32 0#32
  let main_v41 : IVec S800000 32 := broadcastInDim S800000 ![] bcast_S_S800000 main_c_15
  let main_v42 : IVec S800000 1 := cmpi .sge main_arg8 main_v41
  let main_c_16 : IVec S_ 32 := constantI S_ 32 256#32
  let main_v43 : IVec S800000 32 := broadcastInDim S800000 ![] bcast_S_S800000 main_c_16
  let main_v44 : IVec S800000 1 := cmpi .slt main_arg8 main_v43
  let main_v45 : IVec S800000 1 := andi main_v42 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v40 main_v46
  main_v47

def fn_part1 {F : FTy → Type} [FloatOps F] (main_arg4 : FVec F S2x128x128 .f32) (main_arg5 : FVec F S2x128x128 .f32) (main_arg6 : FVec F S2x128x128 .f32) (main_arg7 : IVec S800000 32) (main_arg8 : IVec S800000 32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S800000 .f32) (main_arg2 : FVec F S256x128 .f32) (main_arg3 : FVec F S2x128x128 .f32) (main_arg4 : FVec F S2x128x128 .f32) (main_arg5 : FVec F S2x128x128 .f32) (main_arg6 : FVec F S2x128x128 .f32) (main_arg7 : IVec S800000 32) (main_arg8 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S800000 : Shape := ⟨1, ![800000]⟩
abbrev S256x128 : Shape := ⟨2, ![256, 128]⟩
abbrev S2x128x128 : Shape := ⟨3, ![2, 128, 128]⟩
abbrev S256 : Shape := ⟨1, ![256]⟩
abbrev S256x1 : Shape := ⟨2, ![256, 1]⟩
abbrev S_ : Shape := ⟨0, ![]⟩
abbrev S25600000 : Shape := ⟨1, ![25600000]⟩
abbrev S800000x1 : Shape := ⟨2, ![800000, 1]⟩
abbrev S100000x256 : Shape := ⟨2, ![100000, 256]⟩
abbrev S1x128x128 : Shape := ⟨3, ![1, 128, 128]⟩
abbrev S128x128 : Shape := ⟨2, ![128, 128]⟩
abbrev S2x256x128 : Shape := ⟨3, ![2, 256, 128]⟩
abbrev S2000x256 : Shape := ⟨2, ![2000, 256]⟩
abbrev S2000x128 : Shape := ⟨2, ![2000, 128]⟩
abbrev S1x256x128 : Shape := ⟨3, ![1, 256, 128]⟩
abbrev S2000 : Shape := ⟨1, ![2000]⟩
abbrev S2000x1 : Shape := ⟨2, ![2000, 1]⟩

abbrev nBuf : Space → Nat
  | .hbm => 59
  | .vmem => 43
  | .smem => 0
  | _ => 0

abbrev bufTy : (tb : Table) → Fin (tcTables nBuf tb) → BufTy
  | .hbm, ⟨0, _⟩ => ⟨S100000x128, .f32⟩
  | .hbm, ⟨1, _⟩ => ⟨S800000, .f32⟩
  | .hbm, ⟨2, _⟩ => ⟨S256x128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128x128, .f32⟩
  | .hbm, ⟨7, _⟩ => ⟨S800000, .i32⟩
  | .hbm, ⟨8, _⟩ => ⟨S800000, .i32⟩
  | .hbm, ⟨9, _⟩ => ⟨S256x128, .f32⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S_, .f32⟩
  | .hbm, ⟨15, _⟩ => ⟨S25600000, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S25600000, .f32⟩
  | .hbm, ⟨25, _⟩ => ⟨S100000x256, .f32⟩
  | .hbm, ⟨26, _⟩ => ⟨S100000x256, .bf16⟩
  | .hbm, ⟨27, _⟩ => ⟨S1x128x128, .f32⟩
  | .hbm, ⟨28, _⟩ => ⟨S128x128, .f32⟩
  | .hbm, ⟨29, _⟩ => ⟨S128x128, .bf16⟩
  | .hbm, ⟨30, _⟩ => ⟨S1x128x128, .f32⟩
  | .hbm, ⟨31, _⟩ => ⟨S128x128, .f32⟩
  | .hbm, ⟨32, _⟩ => ⟨S128x128, .bf16⟩
  | .hbm, ⟨33, _⟩ => ⟨S1x128x128, .f32⟩
  | .hbm, ⟨34, _⟩ => ⟨S128x128, .f32⟩
  | .hbm, ⟨35, _⟩ => ⟨S128x128, .bf16⟩
  | .hbm, ⟨36, _⟩ => ⟨S1x128x128, .f32⟩
  | .hbm, ⟨37, _⟩ => ⟨S128x128, .f32⟩
  | .hbm, ⟨38, _⟩ => ⟨S128x128, .bf16⟩
  | .hbm, ⟨39, _⟩ => ⟨S100000x128, .bf16⟩
  | .hbm, ⟨40, _⟩ => ⟨S100000x128, .f32⟩
  | .hbm, ⟨41, _⟩ => ⟨S2x256x128, .f32⟩
  | .hbm, ⟨42, _⟩ => ⟨S256x128, .f32⟩
  | .hbm, ⟨43, _⟩ => ⟨S1x128x128, .f32⟩
  | .hbm, ⟨44, _⟩ => ⟨S128x128, .f32⟩
  | .hbm, ⟨45, _⟩ => ⟨S128x128, .bf16⟩
  | .hbm, ⟨46, _⟩ => ⟨S1x128x128, .f32⟩
  | .hbm, ⟨47, _⟩ => ⟨S128x128, .f32⟩
  | .hbm, ⟨48, _⟩ => ⟨S128x128, .bf16⟩
  | .hbm, ⟨49, _⟩ => ⟨S1x128x128, .f32⟩
  | .hbm, ⟨50, _⟩ => ⟨S128x128, .f32⟩
  | .hbm, ⟨51, _⟩ => ⟨S128x128, .bf16⟩
  | .hbm, ⟨52, _⟩ => ⟨S1x128x128, .f32⟩
  | .hbm, ⟨53, _⟩ => ⟨S128x128, .f32⟩
  | .hbm, ⟨54, _⟩ => ⟨S128x128, .bf16⟩
  | .hbm, ⟨55, _⟩ => ⟨S100000x128, .bf16⟩
  | .hbm, ⟨56, _⟩ => ⟨S2x256x128, .f32⟩
  | .hbm, ⟨57, _⟩ => ⟨S256x128, .f32⟩
  | .hbm, ⟨58, _⟩ => ⟨S100000x256, .f32⟩
  | .local _ .vmem, ⟨0, _⟩ => ⟨S256x128, .f32⟩
  | .local _ .vmem, ⟨1, _⟩ => ⟨S256x128, .f32⟩
  | .local _ .vmem, ⟨2, _⟩ => ⟨S2000x256, .bf16⟩
  | .local _ .vmem, ⟨3, _⟩ => ⟨S2000x256, .bf16⟩
  | .local _ .vmem, ⟨4, _⟩ => ⟨S2000x128, .f32⟩
  | .local _ .vmem, ⟨5, _⟩ => ⟨S2000x128, .f32⟩
  | .local _ .vmem, ⟨6, _⟩ => ⟨S256x128, .f32⟩
  | .local _ .vmem, ⟨7, _⟩ => ⟨S128x128, .bf16⟩
  | .local _ .vmem, ⟨8, _⟩ => ⟨S128x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S1x256x128, .f32⟩
  | .local _ .vmem, ⟨14, _⟩ => ⟨S1x256x128, .f32⟩
  | .local _ .vmem, ⟨15, _⟩ => ⟨S256x128, .f32⟩
  | .local _ .vmem, ⟨16, _⟩ => ⟨S2x256x128, .f32⟩
  | .local _ .vmem, ⟨17, _⟩ => ⟨S256x128, .f32⟩
  | .local _ .vmem, ⟨18, _⟩ => ⟨S128x128, .bf16⟩
  | .local _ .vmem, ⟨19, _⟩ => ⟨S128x128, .bf16⟩
  | .local _ .vmem, ⟨20, _⟩ => ⟨S256x128, .f32⟩
  | .local _ .vmem, ⟨21, _⟩ => ⟨S2000x256, .bf16⟩
  | .local _ .vmem, ⟨22, _⟩ => ⟨S2000x256, .bf16⟩
  | .local _ .vmem, ⟨23, _⟩ => ⟨S2000x128, .bf16⟩
  | .local _ .vmem, ⟨24, _⟩ => ⟨S2000x128, .bf16⟩
  | .local _ .vmem, ⟨25, _⟩ => ⟨S256x128, .f32⟩
  | .local _ .vmem, ⟨26, _⟩ => ⟨S128x128, .bf16⟩
  | .local _ .vmem, ⟨27, _⟩ => ⟨S128x128, .bf16⟩
  | .local _ .vmem, ⟨28, _⟩ => ⟨S2000x128, .bf16⟩
  | .local _ .vmem, ⟨29, _⟩ => ⟨S2000x128, .bf16⟩
  | .local _ .vmem, ⟨30, _⟩ => ⟨S1x256x128, .f32⟩
  | .local _ .vmem, ⟨31, _⟩ => ⟨S1x256x128, .f32⟩
  | .local _ .vmem, ⟨32, _⟩ => ⟨S256x128, .f32⟩
  | .local _ .vmem, ⟨33, _⟩ => ⟨S2x256x128, .f32⟩
  | .local _ .vmem, ⟨34, _⟩ => ⟨S256x128, .f32⟩
  | .local _ .vmem, ⟨35, _⟩ => ⟨S128x128, .bf16⟩
  | .local _ .vmem, ⟨36, _⟩ => ⟨S128x128, .bf16⟩
  | .local _ .vmem, ⟨37, _⟩ => ⟨S256x128, .f32⟩
  | .local _ .vmem, ⟨38, _⟩ => ⟨S2000x128, .bf16⟩
  | .local _ .vmem, ⟨39, _⟩ => ⟨S2000x128, .bf16⟩
  | .local _ .vmem, ⟨40, _⟩ => ⟨S256x128, .f32⟩
  | .local _ .vmem, ⟨41, _⟩ => ⟨S2000x256, .f32⟩
  | .local _ .vmem, ⟨42, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev cc1_sem7_0 : DmaSem sig := 13
abbrev cc1_sem7_1 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem5_1 : DmaSem sig := 28
abbrev cc3_sem6_0 : DmaSem sig := 29
abbrev cc3_sem6_1 : DmaSem sig := 30
abbrev cc4_sem0_0 : DmaSem sig := 31
abbrev cc4_sem1_0 : DmaSem sig := 32
abbrev cc4_sem2_0 : DmaSem sig := 33
abbrev cc4_sem3_0 : DmaSem sig := 34
abbrev cc4_sem4_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_26 : BitVec 32 := 0#32
  let v48 : BitVec 1 := Scalar.cmpi .ne v47 c0_i32_26
  v48

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2x256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨2, ![2, 25], ![false, false]⟩

def k3_cond2 (i : grid3.Coords) : BitVec 1 :=
  let arg1 : BitVec 32 := BitVec.ofNat 32 (i 1).val
  let c24_i32 : BitVec 32 := 24#32
  let v35 : BitVec 1 := Scalar.cmpi .eq arg1 c24_i32
  let v36 : BitVec 32 := Scalar.extui v35
  let c0_i32_21 : BitVec 32 := 0#32
  let v37 : BitVec 1 := Scalar.cmpi .ne v36 c0_i32_21
  v37

def cc3_transform_0 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S2000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2x256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S256x128_S256x128_0_0 : ∀ a, (![0, 0] : Fin 2 → Nat) a + S256x128.size a ≤ S256x128.size a
  h_S256x128 : 0 < S256x128.numel
  reduces_S256x128_S256 : S256x128.Reduces [1] S256
  shapeCasts_S256_S256x1 : S256.ShapeCasts S256x1
  broadcasts_S256x1_S256x128 : S256x1.Broadcasts S256x128
  bcast_S_S800000 : S_.BroadcastsInDim S800000 (![] : Fin 0 → Fin S800000.rank)
  bcast_S_S25600000 : S_.BroadcastsInDim S25600000 (![] : Fin 0 → Fin S25600000.rank)
  bcast_S800000_S800000x1_0 : S800000.BroadcastsInDim S800000x1 (![0] : Fin 1 → Fin S800000x1.rank)
  shapeCasts_S25600000_S100000x256 : S25600000.ShapeCasts S100000x256
  bitsLt_bf16_f32 : FTy.bits .bf16 < FTy.bits .f32
  slices_S2x128x128_S1x128x128_0_0_0 : S2x128x128.Slices ![0, 0, 0] S1x128x128
  shapeCasts_S1x128x128_S128x128 : S1x128x128.ShapeCasts S128x128
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  shapeCasts_S256x128_S1x256x128 : S256x128.ShapeCasts S1x256x128
  inb_S1x256x128_S1x256x128_0_0_0 : ∀ a, (![0, 0, 0] : Fin 3 → Nat) a + S1x256x128.size a ≤ S1x256x128.size a
  h_S1x256x128 : 0 < S1x256x128.numel
  inb_S2x256x128_S1x256x128_0_0_0 : ∀ a, (![0, 0, 0] : Fin 3 → Nat) a + S1x256x128.size a ≤ S2x256x128.size a
  shapeCasts_S1x256x128_S256x128 : S1x256x128.ShapeCasts S256x128
  inb_S2x256x128_S1x256x128_1_0_0 : ∀ a, (![1, 0, 0] : Fin 3 → Nat) a + S1x256x128.size a ≤ S2x256x128.size a
  slices_S2x128x128_S1x128x128_1_0_0 : S2x128x128.Slices ![1, 0, 0] S1x128x128
  shapeCasts_S2000x128_S2000x128 : S2000x128.ShapeCasts S2000x128
  scatter_S25600000_S800000x1_S800000_n_0_0_1_wf : ScatterDims.WF S25600000 S800000x1 S800000 [] [0] [0] 1
  dot_S2000x256_S2000x128_S256x128_0_0_1_1_n_n_wf : DotDims.WF S2000x256 S2000x128 S256x128 [0] [0] [1] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  dot_S256x128_S128x128_S256x128_1_0_0_1_n_n_wf : DotDims.WF S256x128 S128x128 S256x128 [1] [0] [0] [1] [] []
  dot_S2000x128_S256x128_S2000x256_1_1_0_0_n_n_wf : DotDims.WF S2000x128 S256x128 S2000x256 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x128.size a
  hwx0_0 : ∀ i : grid0.Coords, EltTy.bits .f32 = 32 ∨ (Rect.block (s := S256x128) S256x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .bf16 = 32 ∨ (Rect.block (s := S100000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .bf16 = 32 ∨ (Rect.block (s := S100000x128) S2000x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x128.size a ≤ S2x256x128.size a
  hwx1_7 : ∀ i : grid1.Coords, EltTy.bits .f32 = 32 ∨ (Rect.block (s := S2x256x128) S1x256x128.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2x256x128.size a ≤ S2x256x128.size a
  hwx2_0 : ∀ i : grid2.Coords, EltTy.bits .f32 = 32 ∨ (Rect.block (s := S2x256x128) S2x256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .bf16 = 32 ∨ (Rect.block (s := S100000x256) S2000x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .bf16 = 32 ∨ (Rect.block (s := S100000x128) S2000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .bf16 = 32 ∨ (Rect.block (s := S100000x128) S2000x128.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x256x128.size a ≤ S2x256x128.size a
  hwx3_6 : ∀ i : grid3.Coords, EltTy.bits .f32 = 32 ∨ (Rect.block (s := S2x256x128) S1x256x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2x256x128.size a ≤ S2x256x128.size a
  hwx4_0 : ∀ i : grid4.Coords, EltTy.bits .f32 = 32 ∨ (Rect.block (s := S2x256x128) S2x256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S256x128.size a
  hwx4_4 : ∀ i : grid4.Coords, EltTy.bits .f32 = 32 ∨ (Rect.block (s := S256x128) S256x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .bf16 = 32 ∨ (Rect.block (s := S100000x128) S2000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S100000x256.size a
  hwx5_2 : ∀ i : grid5.Coords, EltTy.bits .f32 = 32 ∨ (Rect.block (s := S100000x256) S2000x256.size (cc5_transform_2 i) (hinb5_2 i)).WholeWords (EltTy.packing .f32)

variable [Facts₀]

def scatter_S25600000_S800000x1_S800000_n_0_0_1 : ScatterDims S25600000 S800000x1 S800000 where
  updateWindowDims := []
  insertedWindowDims := [0]
  scatterDimsToOperandDims := [0]
  indexVectorDim := 1
  wf := scatter_S25600000_S800000x1_S800000_n_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf

abbrev win0_0 : Pipeline.Window sig grid0 :=
  Pipeline.Window.ofSpec (Memref.whole main_arg2) S256x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 true false 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_2) S1x256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v26_2) S2x256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v0) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S256x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v13) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v40_1) S1x256x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v40_1) S2x256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v27) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v41) S256x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v40_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v42) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S800000 : Shape := ⟨1, ![800000]⟩
abbrev S256x128 : Shape := ⟨2, ![256, 128]⟩
abbrev S2x128x128 : Shape := ⟨3, ![2, 128, 128]⟩
abbrev S_ : Shape := ⟨0, ![]⟩
abbrev S100000 : Shape := ⟨1, ![100000]⟩
abbrev S100000x1 : Shape := ⟨2, ![100000, 1]⟩
abbrev S256 : Shape := ⟨1, ![256]⟩
abbrev S256x1 : Shape := ⟨2, ![256, 1]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S128x256 : Shape := ⟨2, ![128, 256]⟩
abbrev S100000x256 : Shape := ⟨2, ![100000, 256]⟩

abbrev nBuf : Space → Nat
  | .hbm => 172
  | .vmem => 0
  | .smem => 0
  | _ => 0

abbrev hbmTy0_0 (i : Nat) : BufTy := match i % 128 with
  | 0 => ⟨S100000x128, .f32⟩
  | 1 => ⟨S800000, .f32⟩
  | 2 => ⟨S256x128, .f32⟩
  | 3 => ⟨S2x128x128, .f32⟩
  | 4 => ⟨S2x128x128, .f32⟩
  | 5 => ⟨S2x128x128, .f32⟩
  | 6 => ⟨S2x128x128, .f32⟩
  | 7 => ⟨S800000, .i32⟩
  | 8 => ⟨S800000, .i32⟩
  | 9 => ⟨S100000x128, .f32⟩
  | 10 => ⟨S_, .f32⟩
  | 11 => ⟨S100000, .f32⟩
  | 12 => ⟨S100000x1, .f32⟩
  | 13 => ⟨S100000x1, .f32⟩
  | 14 => ⟨S_, .f32⟩
  | 15 => ⟨S_, .f32⟩
  | 16 => ⟨S100000x1, .f32⟩
  | 17 => ⟨S100000x1, .f32⟩
  | 18 => ⟨S100000x128, .f32⟩
  | 19 => ⟨S100000x128, .f32⟩
  | 20 => ⟨S256x128, .f32⟩
  | 21 => ⟨S_, .f32⟩
  | 22 => ⟨S256, .f32⟩
  | 23 => ⟨S256x1, .f32⟩
  | 24 => ⟨S256x1, .f32⟩
  | 25 => ⟨S_, .f32⟩
  | 26 => ⟨S_, .f32⟩
  | 27 => ⟨S256x1, .f32⟩
  | 28 => ⟨S256x1, .f32⟩
  | 29 => ⟨S256x128, .f32⟩
  | 30 => ⟨S256x128, .f32⟩
  | 31 => ⟨S800000x1, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x128, .f32⟩
  | 42 => ⟨S800000x128, .f32⟩
  | 43 => ⟨S_, .f32⟩
  | 44 => ⟨S256x128, .f32⟩
  | 45 => ⟨S800000x1, .i32⟩
  | 46 => ⟨S256x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x128, .f32⟩
  | 57 => ⟨S800000x128, .f32⟩
  | 58 => ⟨S_, .f32⟩
  | 59 => ⟨S100000x128, .f32⟩
  | 60 => ⟨S800000x1, .i32⟩
  | 61 => ⟨S100000x128, .f32⟩
  | 62 => ⟨S1x128x128, .f32⟩
  | 63 => ⟨S128x128, .f32⟩
  | 64 => ⟨S256x128, .f32⟩
  | 65 => ⟨S1x128x128, .f32⟩
  | 66 => ⟨S128x128, .f32⟩
  | 67 => ⟨S256x128, .f32⟩
  | 68 => ⟨S256x128, .f32⟩
  | 69 => ⟨S1x128x128, .f32⟩
  | 70 => ⟨S128x128, .f32⟩
  | 71 => ⟨S100000x128, .f32⟩
  | 72 => ⟨S1x128x128, .f32⟩
  | 73 => ⟨S128x128, .f32⟩
  | 74 => ⟨S100000x128, .f32⟩
  | 75 => ⟨S100000x128, .f32⟩
  | 76 => ⟨S_, .f32⟩
  | 77 => ⟨S256x128, .f32⟩
  | 78 => ⟨S256x128, .f32⟩
  | 79 => ⟨S_, .f32⟩
  | 80 => ⟨S100000x128, .f32⟩
  | 81 => ⟨S100000x128, .f32⟩
  | 82 => ⟨S256x128, .f32⟩
  | 83 => ⟨S_, .f32⟩
  | 84 => ⟨S256, .f32⟩
  | 85 => ⟨S256x1, .f32⟩
  | 86 => ⟨S256x1, .f32⟩
  | 87 => ⟨S_, .f32⟩
  | 88 => ⟨S_, .f32⟩
  | 89 => ⟨S256x1, .f32⟩
  | 90 => ⟨S256x1, .f32⟩
  | 91 => ⟨S256x128, .f32⟩
  | 92 => ⟨S256x128, .f32⟩
  | 93 => ⟨S100000x128, .f32⟩
  | 94 => ⟨S_, .f32⟩
  | 95 => ⟨S100000, .f32⟩
  | 96 => ⟨S100000x1, .f32⟩
  | 97 => ⟨S100000x1, .f32⟩
  | 98 => ⟨S_, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S256x128, .f32⟩
  | 117 => ⟨S800000x1, .i32⟩
  | 118 => ⟨S256x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S100000x128, .f32⟩

abbrev hbmTy0_1 (i : Nat) : BufTy := match i % 128 with
  | 0 => ⟨S800000x128, .f32⟩
  | 1 => ⟨S800000x128, .f32⟩
  | 2 => ⟨S_, .f32⟩
  | 3 => ⟨S100000x128, .f32⟩
  | 4 => ⟨S800000x1, .i32⟩
  | 5 => ⟨S100000x128, .f32⟩
  | 6 => ⟨S1x128x128, .f32⟩
  | 7 => ⟨S128x128, .f32⟩
  | 8 => ⟨S256x128, .f32⟩
  | 9 => ⟨S1x128x128, .f32⟩
  | 10 => ⟨S128x128, .f32⟩
  | 11 => ⟨S256x128, .f32⟩
  | 12 => ⟨S256x128, .f32⟩
  | 13 => ⟨S1x128x128, .f32⟩
  | 14 => ⟨S128x128, .f32⟩
  | 15 => ⟨S100000x128, .f32⟩
  | 16 => ⟨S1x128x128, .f32⟩
  | 17 => ⟨S128x128, .f32⟩
  | 18 => ⟨S100000x128, .f32⟩
  | 19 => ⟨S100000x128, .f32⟩
  | 20 => ⟨S256x128, .f32⟩
  | 21 => ⟨S_, .f32⟩
  | 22 => ⟨S256, .f32⟩
  | 23 => ⟨S256x1, .f32⟩
  | 24 => ⟨S256x1, .f32⟩
  | 25 => ⟨S_, .f32⟩
  | 26 => ⟨S_, .f32⟩
  | 27 => ⟨S256x1, .f32⟩
  | 28 => ⟨S256x1, .f32⟩
  | 29 => ⟨S256x128, .f32⟩
  | 30 => ⟨S256x128, .f32⟩
  | 31 => ⟨S100000x128, .f32⟩
  | 32 => ⟨S_, .f32⟩
  | 33 => ⟨S100000, .f32⟩
  | 34 => ⟨S100000x1, .f32⟩
  | 35 => ⟨S100000x1, .f32⟩
  | 36 => ⟨S_, .f32⟩
  | 37 => ⟨S_, .f32⟩
  | 38 => ⟨S100000x1, .f32⟩
  | 39 => ⟨S100000x1, .f32⟩
  | 40 => ⟨S100000x128, .f32⟩
  | 41 => ⟨S100000x128, .f32⟩
  | 42 => ⟨S128x256, .f32⟩
  | 43 => ⟨S100000x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call2_v0 : Ref sig .tc := ⟨.hbm, 20, rfl⟩
abbrev main_call2_cst : Ref sig .tc := ⟨.hbm, 21, rfl⟩
abbrev main_call2_v1 : Ref sig .tc := ⟨.hbm, 22, rfl⟩
abbrev main_call2_v2 : Ref sig .tc := ⟨.hbm, 23, rfl⟩
abbrev main_v4 : Ref sig .tc := ⟨.hbm, 24, rfl⟩
abbrev main_cst_0 : Ref sig .tc := ⟨.hbm, 25, rfl⟩
abbrev main_call3_v0 : Ref sig .tc := ⟨.hbm, 26, rfl⟩
abbrev main_call3_v1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call4_cst : Ref sig .tc := ⟨.hbm, 76, rfl⟩
abbrev main_call4_v0 : Ref sig .tc := ⟨.hbm, 77, rfl⟩
abbrev main_v47 : Ref sig .tc := ⟨.hbm, 78, rfl⟩
abbrev main_call5_cst : Ref sig .tc := ⟨.hbm, 79, rfl⟩
abbrev main_call5_v0 : Ref sig .tc := ⟨.hbm, 80, rfl⟩
abbrev main_v48 : Ref sig .tc := ⟨.hbm, 81, rfl⟩
abbrev main_call6_v0 : Ref sig .tc := ⟨.hbm, 82, rfl⟩
abbrev main_call6_cst : Ref sig .tc := ⟨.hbm, 83, rfl⟩
abbrev main_call6_v1 : Ref sig .tc := ⟨.hbm, 84, rfl⟩
abbrev main_call6_v2 : Ref sig .tc := ⟨.hbm, 85, rfl⟩
abbrev main_v49 : Ref sig .tc := ⟨.hbm, 86, rfl⟩
abbrev main_cst_6 : Ref sig .tc := ⟨.hbm, 87, rfl⟩
abbrev main_call7_v0 : Ref sig .tc := ⟨.hbm, 88, rfl⟩
abbrev main_call7_v1 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_call8_v0 : Ref sig .tc := ⟨.hbm, 93, rfl⟩
abbrev main_call8_cst : Ref sig .tc := ⟨.hbm, 94, rfl⟩
abbrev main_call8_v1 : Ref sig .tc := ⟨.hbm, 95, rfl⟩
abbrev main_call8_v2 : Ref sig .tc := ⟨.hbm, 96, rfl⟩
abbrev main_v53 : Ref sig .tc := ⟨.hbm, 97, rfl⟩
abbrev main_cst_7 : Ref sig .tc := ⟨.hbm, 98, rfl⟩
abbrev main_call9_v0 : Ref sig .tc := ⟨.hbm, 99, rfl⟩
abbrev main_call9_v1 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_c_8 : Ref sig .tc := ⟨.hbm, 104, rfl⟩
abbrev main_v57 : Ref sig .tc := ⟨.hbm, 105, rfl⟩
abbrev main_v58 : Ref sig .tc := ⟨.hbm, 106, rfl⟩
abbrev main_c_9 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_10 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_11 : Ref sig .tc := ⟨.hbm, 119, rfl⟩
abbrev main_v69 : Ref sig .tc := ⟨.hbm, 120, rfl⟩
abbrev main_v70 : Ref sig .tc := ⟨.hbm, 121, rfl⟩
abbrev main_c_12 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_13 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_call10_v0 : Ref sig .tc := ⟨.hbm, 148, rfl⟩
abbrev main_call10_cst : Ref sig .tc := ⟨.hbm, 149, rfl⟩
abbrev main_call10_v1 : Ref sig .tc := ⟨.hbm, 150, rfl⟩
abbrev main_call10_v2 : Ref sig .tc := ⟨.hbm, 151, rfl⟩
abbrev main_v95 : Ref sig .tc := ⟨.hbm, 152, rfl⟩
abbrev main_cst_14 : Ref sig .tc := ⟨.hbm, 153, rfl⟩
abbrev main_call11_v0 : Ref sig .tc := ⟨.hbm, 154, rfl⟩
abbrev main_call11_v1 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_call12_v0 : Ref sig .tc := ⟨.hbm, 159, rfl⟩
abbrev main_call12_cst : Ref sig .tc := ⟨.hbm, 160, rfl⟩
abbrev main_call12_v1 : Ref sig .tc := ⟨.hbm, 161, rfl⟩
abbrev main_call12_v2 : Ref sig .tc := ⟨.hbm, 162, rfl⟩
abbrev main_v99 : Ref sig .tc := ⟨.hbm, 163, rfl⟩
abbrev main_cst_15 : Ref sig .tc := ⟨.hbm, 164, rfl⟩
abbrev main_call13_v0 : Ref sig .tc := ⟨.hbm, 165, rfl⟩
abbrev main_call13_v1 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S256x128 : S_.BroadcastsInDim S256x128 (![] : Fin 0 → Fin S256x128.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  transposes_S256x128_S128x256_1_0 : S256x128.Transposes [1, 0] S128x256
  gather_S100000x128_S800000x1_S800000x128_1_0_n_n_0_1_1128_wf : GatherDims.WF S100000x128 S800000x1 S800000x128 [1] [0] [] [0] [] 1 ![1, 128]
  scatter_S256x128_S800000x1_S800000x128_1_0_0_1_wf : ScatterDims.WF S256x128 S800000x1 S800000x128 [1] [0] [0] 1
  gather_S256x128_S800000x1_S800000x128_1_0_n_n_0_1_1128_wf : GatherDims.WF S256x128 S800000x1 S800000x128 [1] [0] [] [0] [] 1 ![1, 128]
  scatter_S100000x128_S800000x1_S800000x128_1_0_0_1_wf : ScatterDims.WF S100000x128 S800000x1 S800000x128 [1] [0] [0] 1
  dot_S256x128_S128x128_S256x128_1_0_0_1_n_n_wf : DotDims.WF S256x128 S128x128 S256x128 [1] [0] [0] [1] [] []
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S256x128_S800000x1_S800000x128_1_0_0_1 : ScatterDims S256x128 S800000x1 S800000x128 where
  updateWindowDims := [1]
  insertedWindowDims := [0]
  scatterDimsToOperandDims := [0]
  indexVectorDim := 1
  wf := scatter_S256x128_S800000x1_S800000x128_1_0_0_1_wf
def gather_S256x128_S800000x1_S800000x128_1_0_n_n_0_1_1128 : GatherDims S256x128 S800000x1 S800000x128 where
  offsetDims := [1]
  collapsedSliceDims := [0]
  operandBatchingDims := []
  startIndicesBatchingDims := []
  startIndexMap := [0]
  indexVectorDim := 1
  sliceSizes := ![1, 128]
  wf := gather_S256x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.KI.Reg0.lean ====
import proofs.«424668_j14448269984047_2_alg».proof.Proof.Gen.KernelIdeal.Launch
import proofs.«424668_j14448269984047_2_alg».proof.Proof.Gen.KernelIdeal.Skeleton
import proofs.«424668_j14448269984047_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S256x128 := Rect.unit (s := S256x128) ![0, 0] S256x128.size inb_S256x128_S256x128_0_0

def out0_1 (x0 : Vec F S256x128 .f32) : Vec F S256x128 .f32 :=
  View.canon [⟨r0_0, k0_pay1 (View.ld x0 r0_0)⟩]

theorem sound_kernel0 (c : Dev nD) (E : Set ℕ) (i : grid0.Coords) (arg0 : Memref sig .tc .vmem S256x128 .f32) (harg0 : arg0.IsWhole) (arg1 : Memref sig .tc .vmem S256x128 .f32) (harg1 : arg1.IsWhole)
    (x0 : Vec F S256x128 .f32) (K : PUnit → sProp 𝕄) :
    iprop(owns c arg0 fullShare x0 ∗ (∃ d, owns c arg1 fullShare d)
        ∗ (iprop(owns c arg0 fullShare x0 ∗ owns c arg1 fullShare (out0_1 x0)) -∗ K ⟨⟩))
      ⊢ wp frame (wpE (defs₀ (F := F)) Variants.none c none) E (cc0__l2norm_kernel i arg0 harg0 arg1 harg1) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S256x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = out0_1 (iblk0 V c 0 t) := by dsimp only [dat0]

theorem body_obligation0 (c : Dev nD) : BodyObligation (dat0 (F := F) V c) (defs₀ (F := F)) Variants.none () Set.univ := fun t => by
  have hb := (dat0 V c).before_in_eq_fetched
  rw [bigSep_W0, bigSep_W0]
  show _ ⊢ wp _ _ _ (bodyAt0 t) fun _ => iprop((dat0 V c).Φ t.castSucc ∗ (dat0 V c).owesAt () t.castSucc ∗ _)
  simp only [hb 0 rfl (fun _ => rfl) (fun _ _ _ => rfl) (fun _ => rfl), after0_1]
  iintro ⟨HΦ, Ho, ⟨%_, H0⟩, ⟨%_, H1⟩⟩
  iapply sound_kernel0 c Set.univ _ _ _ _ _ (iblk0 V c 0 t) _
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.KernelIdeal.Frm

end
-- ==== Proof.KI.Reg1Base.lean ====
import proofs.«424668_j14448269984047_2_alg».proof.Proof.Gen.KernelIdeal.Launch
import proofs.«424668_j14448269984047_2_alg».proof.Proof.Gen.KernelIdeal.Skeleton
import proofs.«424668_j14448269984047_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel

theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel

theorem liveAt1_7_C : ∀ t : Fin cfg1.N, ¬cond1_0 (grid1.coords t) → cond1_1 (grid1.coords t) → cfg1.idle 7 (grid1.coords t) = false := by decide +kernel

abbrev VO1_5 : View sig .tc .vmem S2000x128 .bf16 := (Memref.whole cc1_stg5_0 : Memref sig .tc .vmem S2000x128 .bf16).view
abbrev VO1_6 : View sig .tc .vmem S2000x128 .f32 := (Memref.whole cc1_stg6_0 : Memref sig .tc .vmem S2000x128 .f32).view
abbrev VO1_7 : View sig .tc .vmem S1x256x128 .f32 := (Memref.whole cc1_stg7_0 : Memref sig .tc .vmem S1x256x128 .f32).view
abbrev ms1_0 (t : Fin cfg1.N) : Memref sig .tc .vmem S2000x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256x128 .f32 := win1_7.stage (cfg1.slots t 7)
abbrev hs1_7 (t : Fin cfg1.N) : (ms1_7 t).IsWhole := hstage1_7 ((cfg1.slots t 7).cast nbuf1_7)

abbrev scM1_0 : Memref sig .tc .vmem S256x128 .f32 := Memref.whole cc1_scratch0
abbrev VS1_0 : View sig .tc .vmem S256x128 .f32 := scM1_0.view

theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Frm

end
-- ==== Proof.KI.Reg1RunA.lean ====
import proofs.«424668_j14448269984047_2_alg».proof.Proof.KI.Reg1Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S2000x256 .bf16) (harg2 : arg2.IsWhole) (arg3 : Memref sig .tc .vmem S2000x128 .f32) (harg3 : arg3.IsWhole) (arg4 : Memref sig .tc .vmem S256x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S2000x128 .bf16) (harg7 : arg7.IsWhole) (arg8 : Memref sig .tc .vmem S2000x128 .f32) (harg8 : arg8.IsWhole) (arg9 : Memref sig .tc .vmem S1x256x128 .f32) (harg9 : arg9.IsWhole) (arg10 : Memref sig .tc .vmem S256x128 .f32) (harg10 : arg10.IsWhole) (hc0 : cond1_0 i) (hc1 : ¬cond1_1 i)
    (x0 : Vec F S2000x256 .bf16) (x1 : Vec F S2000x128 .f32) (x2 : Vec F S256x128 .f32) (x3 : Vec F S128x128 .bf16) (x4 : Vec F S128x128 .bf16) :
    Σ' (L5 : List (View.Piece (Elt F) S2000x128 .bf16)) (L6 : List (View.Piece (Elt F) S2000x128 .f32)) (L7 : List (View.Piece (Elt F) S1x256x128 .f32)), { LS0 : List (View.Piece (Elt F) S256x128 .f32) //
      ∀ (xi7 : Vec F S1x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__layer0_k1_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc1__layer0_k1_kernel_eq_skeleton]; unfold cc1__layer0_k1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.KernelIdeal.Frm

end
-- ==== Proof.KI.Reg1RunB.lean ====
import proofs.«424668_j14448269984047_2_alg».proof.Proof.KI.Reg1Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S2000x256 .bf16) (harg2 : arg2.IsWhole) (arg3 : Memref sig .tc .vmem S2000x128 .f32) (harg3 : arg3.IsWhole) (arg4 : Memref sig .tc .vmem S256x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S2000x128 .bf16) (harg7 : arg7.IsWhole) (arg8 : Memref sig .tc .vmem S2000x128 .f32) (harg8 : arg8.IsWhole) (arg9 : Memref sig .tc .vmem S1x256x128 .f32) (harg9 : arg9.IsWhole) (arg10 : Memref sig .tc .vmem S256x128 .f32) (harg10 : arg10.IsWhole) (hc0 : ¬cond1_0 i) (hc1 : ¬cond1_1 i)
    (x0 : Vec F S2000x256 .bf16) (x1 : Vec F S2000x128 .f32) (x2 : Vec F S256x128 .f32) (x3 : Vec F S128x128 .bf16) (x4 : Vec F S128x128 .bf16) (xs0 : Vec F S256x128 .f32) :
    Σ' (L5 : List (View.Piece (Elt F) S2000x128 .bf16)) (L6 : List (View.Piece (Elt F) S2000x128 .f32)) (L7 : List (View.Piece (Elt F) S1x256x128 .f32)), { LS0 : List (View.Piece (Elt F) S256x128 .f32) //
      ∀ (xi7 : Vec F S1x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__layer0_k1_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    simp only [cc1__layer0_k1_kernel_eq_skeleton]; unfold cc1__layer0_k1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.KernelIdeal.Frm

end
-- ==== Proof.KI.Reg1RunC.lean ====
import proofs.«424668_j14448269984047_2_alg».proof.Proof.KI.Reg1Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S2000x256 .bf16) (harg2 : arg2.IsWhole) (arg3 : Memref sig .tc .vmem S2000x128 .f32) (harg3 : arg3.IsWhole) (arg4 : Memref sig .tc .vmem S256x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S2000x128 .bf16) (harg7 : arg7.IsWhole) (arg8 : Memref sig .tc .vmem S2000x128 .f32) (harg8 : arg8.IsWhole) (arg9 : Memref sig .tc .vmem S1x256x128 .f32) (harg9 : arg9.IsWhole) (arg10 : Memref sig .tc .vmem S256x128 .f32) (harg10 : arg10.IsWhole) (hc0 : ¬cond1_0 i) (hc1 : cond1_1 i)
    (x0 : Vec F S2000x256 .bf16) (x1 : Vec F S2000x128 .f32) (x2 : Vec F S256x128 .f32) (x3 : Vec F S128x128 .bf16) (x4 : Vec F S128x128 .bf16) (xs0 : Vec F S256x128 .f32) :
    Σ' (L5 : List (View.Piece (Elt F) S2000x128 .bf16)) (L6 : List (View.Piece (Elt F) S2000x128 .f32)) (L7 : List (View.Piece (Elt F) S1x256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__layer0_k1_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__layer0_k1_kernel_eq_skeleton]; unfold cc1__layer0_k1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Frm

end
-- ==== Proof.KI.Reg1.lean ====
import proofs.«424668_j14448269984047_2_alg».proof.Proof.KI.Reg1RunA
import proofs.«424668_j14448269984047_2_alg».proof.Proof.KI.Reg1RunB
import proofs.«424668_j14448269984047_2_alg».proof.Proof.KI.Reg1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S2000x256 .bf16) (harg2 : arg2.IsWhole) (arg3 : Memref sig .tc .vmem S2000x128 .f32) (harg3 : arg3.IsWhole)
    (arg4 : Memref sig .tc .vmem S256x128 .f32) (harg4 : arg4.IsWhole) (arg5 : Memref sig .tc .vmem S128x128 .bf16) (harg5 : arg5.IsWhole) (arg6 : Memref sig .tc .vmem S128x128 .bf16) (harg6 : arg6.IsWhole)
    (arg7 : Memref sig .tc .vmem S2000x128 .bf16) (harg7 : arg7.IsWhole) (arg8 : Memref sig .tc .vmem S2000x128 .f32) (harg8 : arg8.IsWhole) (arg9 : Memref sig .tc .vmem S1x256x128 .f32) (harg9 : arg9.IsWhole)
    (arg10 : Memref sig .tc .vmem S256x128 .f32) (harg10 : arg10.IsWhole)

section
variable (hc0 : cond1_0 i) (hc1 : ¬cond1_1 i)
    (x0 : Vec F S2000x256 .bf16) (x1 : Vec F S2000x128 .f32) (x2 : Vec F S256x128 .f32) (x3 : Vec F S128x128 .bf16) (x4 : Vec F S128x128 .bf16)

theorem cover1_A_5 (y : S2000x128.Idx) : ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S2000x128.size (by sl_kernel_rfl) y

def out1_A_5 : Vec F S2000x128 .bf16 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3 x4).1)

theorem cover1_A_6 (y : S2000x128.Idx) : ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S2000x128.size (by sl_kernel_rfl) y

def out1_A_6 : Vec F S2000x128 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4).2.1)

def out1_A_7 : Vec F S1x256x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 hc1 x0 x1 x2 x3 x4).2.2.1)

theorem scover1_A_0 (y : S256x128.Idx) : ∃ pc ∈ (kernelRun1_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL _ S256x128.size (by sl_kernel_rfl) y

def sout1_A_0 : Vec F S256x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).2.2.2.1)

end

section
variable (hc0 : ¬cond1_0 i) (hc1 : ¬cond1_1 i)
    (x0 : Vec F S2000x256 .bf16) (x1 : Vec F S2000x128 .f32) (x2 : Vec F S256x128 .f32) (x3 : Vec F S128x128 .bf16) (x4 : Vec F S128x128 .bf16) (xs0 : Vec F S256x128 .f32)

theorem cover1_B_5 (y : S2000x128.Idx) : ∃ pc ∈ (kernelRun1_B c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL _ S2000x128.size (by sl_kernel_rfl) y

def out1_B_5 : Vec F S2000x128 .bf16 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0).1)

theorem cover1_B_6 (y : S2000x128.Idx) : ∃ pc ∈ (kernelRun1_B c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL _ S2000x128.size (by sl_kernel_rfl) y

def out1_B_6 : Vec F S2000x128 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 xs0).2.1)

def out1_B_7 : Vec F S1x256x128 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 hc1 x0 x1 x2 x3 x4 xs0).2.2.1)

theorem scover1_B_0 (y : S256x128.Idx) : ∃ pc ∈ (kernelRun1_B c i arg2 harg2 arg3 harg3 arg4 harg4 arg5 harg5 arg6 harg6 arg7 harg7 arg8 harg8 arg9 harg9 arg10 harg10 hc0 hc1 x0 x1 x2 x3 x4 xs0).2.2.2.1, y ∈ pc.1.set :=
  View.cover_of_tiledL _ S256x128.size (by sl_kernel_rfl) y

def sout1_B_0 : Vec F S256x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0).2.2.2.1)

end

section
variable (hc0 : ¬cond1_0 i) (hc1 : cond1_1 i)
    (x0 : Vec F S2000x256 .bf16) (x1 : Vec F S2000x128 .f32) (x2 : Vec F S256x128 .f32) (x3 : Vec F S128x128 .bf16) (x4 : Vec F S128x128 .bf16) (xs0 : Vec F S256x128 .f32)

theorem cover1_C_5 (y : S2000x128.Idx) : ∃ pc ∈ (kernelRun1_C c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL _ S2000x128.size (by sl_kernel_rfl) y

def out1_C_5 : Vec F S2000x128 .bf16 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0).1)

theorem cover1_C_6 (y : S2000x128.Idx) : ∃ pc ∈ (kernelRun1_C c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL _ S2000x128.size (by sl_kernel_rfl) y

def out1_C_6 : Vec F S2000x128 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 xs0).2.1)

theorem cover1_C_7 (y : S1x256x128.Idx) : ∃ pc ∈ (kernelRun1_C c i arg2 harg2 arg3 harg3 arg4 harg4 arg5 harg5 arg6 harg6 arg7 harg7 arg8 harg8 arg9 harg9 arg10 harg10 hc0 hc1 x0 x1 x2 x3 x4 xs0).2.2.1, y ∈ pc.1.set :=
  View.cover_of_tiledL _ S1x256x128.size (by sl_kernel_rfl) y

def out1_C_7 : Vec F S1x256x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 xs0).2.2.1)

theorem scover1_C_0 (y : S256x128.Idx) : ∃ pc ∈ (kernelRun1_C c i arg2 harg2 arg3 harg3 arg4 harg4 arg5 harg5 arg6 harg6 arg7 harg7 arg8 harg8 arg9 harg9 arg10 harg10 hc0 hc1 x0 x1 x2 x3 x4 xs0).2.2.2.1, y ∈ pc.1.set :=
  View.cover_of_tiledL _ S256x128.size (by sl_kernel_rfl) y

def sout1_C_0 : Vec F S256x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0).2.2.2.1)

end

end

abbrev Outs1 (F : FTy → Type) [FloatOps F] : Type := Vec F S2000x128 .bf16 × Vec F S2000x128 .f32 × Vec F S1x256x128 .f32 × Vec F S256x128 .f32

def ptA1 (c : Dev nD) (t : Fin cfg1.N) (hc0 : cond1_0 (grid1.coords t)) (hc1 : ¬cond1_1 (grid1.coords t)) : Outs1 F :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t),
   out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t),
   out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t))

def ptB1 (c : Dev nD) (t : Fin cfg1.N) (hc0 : ¬cond1_0 (grid1.coords t)) (hc1 : ¬cond1_1 (grid1.coords t)) (xs0 : Vec F S256x128 .f32) : Outs1 F :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) xs0,
   out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) xs0,
   out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) xs0)

def ptC1 (c : Dev nD) (t : Fin cfg1.N) (hc0 : ¬cond1_0 (grid1.coords t)) (hc1 : cond1_1 (grid1.coords t)) (xs0 : Vec F S256x128 .f32) : Outs1 F :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) xs0,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) xs0,
   out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) xs0)

def outsAt1 (c : Dev nD) : (n : ℕ) → n < cfg1.N → Outs1 F
  | 0, hn => ptA1 V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 25 = 0 then
      if h1 : (n + 1) % 25 = 24 then
        False.elim (by omega)
      else
        ptA1 V c ⟨n + 1, hn⟩ ((hcond1_0 ⟨n + 1, hn⟩).mpr h0) (fun h => h1 ((hcond1_1 ⟨n + 1, hn⟩).mp h))
    else
      if h1 : (n + 1) % 25 = 24 then
        ptC1 V c ⟨n + 1, hn⟩ (fun h => h0 ((hcond1_0 ⟨n + 1, hn⟩).mp h)) ((hcond1_1 ⟨n + 1, hn⟩).mpr h1) (outsAt1 c n (Nat.lt_of_succ_lt hn)).2.2.2
      else
        ptB1 V c ⟨n + 1, hn⟩ (fun h => h0 ((hcond1_0 ⟨n + 1, hn⟩).mp h)) (fun h => h1 ((hcond1_1 ⟨n + 1, hn⟩).mp h)) (outsAt1 c n (Nat.lt_of_succ_lt hn)).2.2.2

theorem outsAt1_A (c : Dev nD) (t : Fin cfg1.N) (h0 : t.val % 25 = 0) (h1 : ¬t.val % 25 = 24) :
    outsAt1 V c t.val t.isLt = ptA1 V c t ((hcond1_0 t).mpr h0) (fun h => h1 ((hcond1_1 t).mp h)) := by
  obtain ⟨_ | n, hn⟩ := t
  exacts [rfl, (dif_pos h0).trans (dif_neg h1)]

theorem outsAt1_B (c : Dev nD) (t : Fin cfg1.N) (h0 : ¬t.val % 25 = 0) (h1 : ¬t.val % 25 = 24) :
    outsAt1 V c t.val t.isLt = ptB1 V c t (fun h => h0 ((hcond1_0 t).mp h)) (fun h => h1 ((hcond1_1 t).mp h)) (outsAt1 V c (t.val - 1) (Nat.lt_of_le_of_lt (Nat.sub_le _ _) t.isLt)).2.2.2 := by
  obtain ⟨_ | n, hn⟩ := t
  exacts [absurd rfl h0, (dif_neg h0).trans (dif_neg h1)]

theorem outsAt1_C (c : Dev nD) (t : Fin cfg1.N) (h0 : ¬t.val % 25 = 0) (h1 : t.val % 25 = 24) :
    outsAt1 V c t.val t.isLt = ptC1 V c t (fun h => h0 ((hcond1_0 t).mp h)) ((hcond1_1 t).mpr h1) (outsAt1 V c (t.val - 1) (Nat.lt_of_le_of_lt (Nat.sub_le _ _) t.isLt)).2.2.2 := by
  obtain ⟨_ | n, hn⟩ := t
  exacts [absurd rfl h0, (dif_neg h0).trans (dif_pos h1)]

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2)) ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(iprop(owns (c : Thread nD τ) scM1_0 fullShare ((outsAt1 V c n hn).2.2.2)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.val_castSucc]

theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2.1 := by dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem owns_of_cover {s : Shape} {e : EltTy} (c : Dev nD) (m : Memref sig .tc .vmem s e) (v : View sig .tc .vmem s e)
    (L : List (View.Piece (Elt F) s e)) (h : ∀ y, ∃ p ∈ L, y ∈ p.1.set) :
    (iprop(∃ f, m.view.loc (c : Thread nD τ) ↦[m.view.set]{fullShare} m.view.writes (Elt F) f L) : sProp 𝕄)
      ⊢ owns (c : Thread nD τ) m fullShare (v.read (Elt F) (v.writes (Elt F) v.junk L)) := by
  unfold owns; iintro ⟨%f, H⟩; iexists m.view.writes (Elt F) f L; isplitr
  · ipureintro; exact View.read_writes_of_cover _ _ _ _ _ h
  iexact H

theorem PhiS1_out (c : Dev nD) (n : ℕ) (h : n ≤ cfg1.N) : PhiS1 V c n h ⊢ (Pipeline.ΦA spec1 c : sProp 𝕄) := by
  cases n with
  | zero => exact .rfl
  | succ n =>
    rw [PhiS1, PhiA1_eq]; iintro ⟨⟨HS0, HR⟩, Hg⟩; iframe HR Hg; iexists _; iexact HS0

theorem live1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(show ∀ t d, (dat1 V c).before 0 t d = iblk1 V c 0 t from (dat1 V c).before_in_eq_fetched 0 rfl (fun _ => rfl) (fun _ _ _ => rfl) fun _ => rfl),
    (show ∀ t d, (dat1 V c).before 1 t d = iblk1 V c 1 t from (dat1 V c).before_in_eq_fetched 1 rfl (fun _ => rfl) (fun _ _ _ => rfl) fun _ => rfl),
    (show ∀ t d, (dat1 V c).before 2 t d = iblk1 V c 2 t from (dat1 V c).before_in_eq_fetched 2 rfl (fun _ => rfl) (fun _ _ _ => rfl) fun _ => rfl),
    (show ∀ t d, (dat1 V c).before 3 t d = iblk1 V c 3 t from (dat1 V c).before_in_eq_fetched 3 rfl (fun _ => rfl) (fun _ _ _ => rfl) fun _ => rfl),
    (show ∀ t d, (dat1 V c).before 4 t d = iblk1 V c 4 t from (dat1 V c).before_in_eq_fetched 4 rfl (fun _ => rfl) (fun _ _ _ => rfl) fun _ => rfl)]
  rw [show (dat1 V c).owesAt () t.succ = (dat1 V c).owesAt () t.castSucc from rfl,
    show (dat1 V c).Φ t.succ = PhiS1 V c (t.val + 1) t.isLt from rfl, PhiS1, PhiS1_castSucc V c t,
    live1 V c 5 t (liveAt1_5 t), live1 V c 6 t (liveAt1_6 t), after1_5, after1_6]
  by_cases h0 : t.val % 25 = 0
  · have h1 : ¬t.val % 25 = 24 := by omega
    rw [Dat.leavesExact_idle (dat1 V c) 7 t (idleAt1_7_A t ((hcond1_0 t).mpr h0) (mt (hcond1_1 t).mp h1)) (noFlush1_7_A t ((hcond1_0 t).mpr h0) (mt (hcond1_1 t).mp h1)), outsAt1_A V c t h0 h1]
    refine (sep_mono_left (PhiS1_out V c _ _)).trans ?_
    rw [PhiA1_eq]
    unfold ptA1 out1_A_5 out1_A_6 sout1_A_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun1_A c (grid1.coords t) _ _ _ _ _ _ _ _ _ _ _ _ _ _ _ _ _ _ ((hcond1_0 t).mpr h0) (mt (hcond1_1 t).mp h1) _ _ _ _ _).2.2.2.2 _ Set.univ _
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    iintro ⟨H0, H1, H2, H3, H4, H5, H6, H7, HS0⟩
    iframe HR Hg Ho
    isplitl [HS0]; · iapply owns_of_cover c _ _ _ (fun y => scover1_A_0 (y := y) ..); iexact HS0
    isplitl [H0]; · iexact H0
    isplitl [H1]; · iexact H1
    isplitl [H2]; · iexact H2
    isplitl [H3]; · iexact H3
    isplitl [H4]; · iexact H4
    isplitl [H5]; · iapply owns_of_cover c _ _ _ (fun y => cover1_A_5 (y := y) ..); iexact H5
    isplitl [H6]; · iapply owns_of_cover c _ _ _ (fun y => cover1_A_6 (y := y) ..); iexact H6
    iexists _; iexact H7
  · rw [PhiS1_pos V c _ _ (by omega)]
    by_cases h1 : t.val % 25 = 24
    · rw [live1 V c 7 t (liveAt1_7_C t (mt (hcond1_0 t).mp h0) ((hcond1_1 t).mpr h1)), after1_7, outsAt1_C V c t h0 h1]
      unfold ptC1 out1_C_5 out1_C_6 out1_C_7 sout1_C_0; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c (grid1.coords t) _ _ _ _ _ _ _ _ _ _ _ _ _ _ _ _ _ _ (mt (hcond1_0 t).mp h0) ((hcond1_1 t).mpr h1) _ _ _ _ _ _).2.2.2.2 Set.univ _
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, H5, H6, H7, HS0⟩
      iframe HR Hg Ho
      isplitl [HS0]; · iapply owns_of_cover c _ _ _ (fun y => scover1_C_0 (y := y) ..); iexact HS0
      isplitl [H0]; · iexact H0
      isplitl [H1]; · iexact H1
      isplitl [H2]; · iexact H2
      isplitl [H3]; · iexact H3
      isplitl [H4]; · iexact H4
      isplitl [H5]; · iapply owns_of_cover c _ _ _ (fun y => cover1_C_5 (y := y) ..); iexact H5
      isplitl [H6]; · iapply owns_of_cover c _ _ _ (fun y => cover1_C_6 (y := y) ..); iexact H6
      iapply owns_of_cover c _ _ _ (fun y => cover1_C_7 (y := y) ..); iexact H7
    · rw [Dat.leavesExact_idle (dat1 V c) 7 t (idleAt1_7_B t (mt (hcond1_0 t).mp h0) (mt (hcond1_1 t).mp h1)) (noFlush1_7_B t (mt (hcond1_0 t).mp h0) (mt (hcond1_1 t).mp h1)), outsAt1_B V c t h0 h1]
      unfold ptB1 out1_B_5 out1_B_6 sout1_B_0; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) _ _ _ _ _ _ _ _ _ _ _ _ _ _ _ _ _ _ (mt (hcond1_0 t).mp h0) (mt (hcond1_1 t).mp h1) _ _ _ _ _ _).2.2.2.2 _ Set.univ _
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, H5, H6, H7, HS0⟩
      iframe HR Hg Ho
      isplitl [HS0]; · iapply owns_of_cover c _ _ _ (fun y => scover1_B_0 (y := y) ..); iexact HS0
      isplitl [H0]; · iexact H0
      isplitl [H1]; · iexact H1
      isplitl [H2]; · iexact H2
      isplitl [H3]; · iexact H3
      isplitl [H4]; · iexact H4
      isplitl [H5]; · iapply owns_of_cover c _ _ _ (fun y => cover1_B_5 (y := y) ..); iexact H5
      isplitl [H6]; · iapply owns_of_cover c _ _ _ (fun y => cover1_B_6 (y := y) ..); iexact H6
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem Phi_out1 (c : Dev nD) (t : Fin (cfg1.N + 1)) : (dat1 V c).Φ t ⊢ (Pipeline.ΦA spec1 c : sProp 𝕄) := PhiS1_out V c t.val _

theorem hout1 (c : Dev nD) : (dat1 V c).Φ (Fin.last cfg1.N) ⊢ (Pipeline.ΦA spec1 c : sProp 𝕄) := Phi_out1 V c _

end Cert.KernelIdeal.Frm

end
-- ==== Proof.KI.Reg2.lean ====
import proofs.«424668_j14448269984047_2_alg».proof.Proof.Gen.KernelIdeal.Launch
import proofs.«424668_j14448269984047_2_alg».proof.Proof.Gen.KernelIdeal.Skeleton
import proofs.«424668_j14448269984047_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S2x256x128 := Rect.unit (s := S2x256x128) ![0, 0, 0] S1x256x128.size inb_S2x256x128_S1x256x128_0_0_0
abbrev r2_b : Rect S2x256x128 := Rect.unit (s := S2x256x128) ![1, 0, 0] S1x256x128.size inb_S2x256x128_S1x256x128_1_0_0
abbrev r2_m : Rect S256x128 := Rect.unit (s := S256x128) ![0, 0] S256x128.size inb_S256x128_S256x128_0_0
abbrev r2_w : Rect S128x128 := Rect.unit (s := S128x128) ![0, 0] S128x128.size inb_S128x128_S128x128_0_0

def out2_4 (x0 : Vec F S2x256x128 .f32) (x1 : Vec F S256x128 .f32) (x2 : Vec F S128x128 .bf16) (x3 : Vec F S128x128 .bf16) : Vec F S256x128 .f32 :=
  View.canon [⟨r2_m, k2_pay1 (View.ld x0 r2_a) (View.ld x0 r2_b) (View.ld x1 r2_m) (View.ld x2 r2_w) (View.ld x3 r2_w)⟩]

theorem sound_kernel2 (c : Dev nD) (E : Set ℕ) (i : grid2.Coords) (arg1 : Memref sig .tc .vmem S2x256x128 .f32) (harg1 : arg1.IsWhole) (arg2 : Memref sig .tc .vmem S256x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S256x128 .f32) (harg5 : arg5.IsWhole)
    (x0 : Vec F S2x256x128 .f32) (x1 : Vec F S256x128 .f32) (x2 : Vec F S128x128 .bf16) (x3 : Vec F S128x128 .bf16) (K : PUnit → sProp 𝕄) :
    iprop(owns c arg1 fullShare x0 ∗ owns c arg2 fullShare x1 ∗ owns c arg3 fullShare x2 ∗ owns c arg4 fullShare x3 ∗ (∃ d, owns c arg5 fullShare d)
        ∗ (iprop(owns c arg1 fullShare x0 ∗ owns c arg2 fullShare x1 ∗ owns c arg3 fullShare x2 ∗ owns c arg4 fullShare x3 ∗ owns c arg5 fullShare (out2_4 x0 x1 x2 x3)) -∗ K ⟨⟩))
      ⊢ wp frame (wpE (defs₀ (F := F)) Variants.none c none) E (cc2__task_finalize_kernel i arg1 harg1 arg2 harg2 arg3 harg3 arg4 harg4 arg5 harg5) K := by
  simp only [cc2__task_finalize_kernel_eq_skeleton]; unfold cc2__task_finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S256x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

theorem body_obligation2 (c : Dev nD) : BodyObligation (dat2 (F := F) V c) (defs₀ (F := F)) Variants.none () Set.univ := fun t => by
  have hb := (dat2 V c).before_in_eq_fetched
  rw [bigSep_W2, bigSep_W2]
  show _ ⊢ wp _ _ _ (bodyAt2 t) fun _ => iprop((dat2 V c).Φ t.castSucc ∗ (dat2 V c).owesAt () t.castSucc ∗ _)
  simp only [hb 0 rfl (fun _ => rfl) (fun _ _ _ => rfl) (fun _ => rfl), hb 1 rfl (fun _ => rfl) (fun _ _ _ => rfl) (fun _ => rfl), hb 2 rfl (fun _ => rfl) (fun _ _ _ => rfl) (fun _ => rfl), hb 3 rfl (fun _ => rfl) (fun _ _ _ => rfl) (fun _ => rfl), after2_4]
  iintro ⟨HΦ, Ho, ⟨%_, H0⟩, ⟨%_, H1⟩, ⟨%_, H2⟩, ⟨%_, H3⟩, ⟨%_, H4⟩⟩
  iapply sound_kernel2 c Set.univ _ _ _ _ _ _ _ _ _ _ _ (iblk2 V c 0 t) (iblk2 V c 1 t) (iblk2 V c 2 t) (iblk2 V c 3 t) _
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Frm

end
-- ==== Proof.KI.Reg3Runs.lean ====
import proofs.«424668_j14448269984047_2_alg».proof.Proof.Gen.KernelIdeal.Launch
import proofs.«424668_j14448269984047_2_alg».proof.Proof.Gen.KernelIdeal.Skeleton
import proofs.«424668_j14448269984047_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1

theorem hcond3_1 : ∀ t : Fin cfg3.N, cond3_1 (grid3.coords t) ↔ t.val % 25 = 24 :=
  (by decide +kernel : ∀ t : Fin grid3.N, cond3_1 (grid3.coords t) ↔ t.val % 25 = 24)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel
theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel

theorem liveAt3_6_C : ∀ t : Fin cfg3.N, ¬cond3_0 (grid3.coords t) → cond3_1 (grid3.coords t) → cfg3.idle 6 (grid3.coords t) = false := by decide +kernel

abbrev VO3_5 : View sig .tc .vmem S2000x128 .bf16 := (Memref.whole cc3_stg5_0 : Memref sig .tc .vmem S2000x128 .bf16).view
abbrev VO3_6 : View sig .tc .vmem S1x256x128 .f32 := (Memref.whole cc3_stg6_0 : Memref sig .tc .vmem S1x256x128 .f32).view

abbrev ms3_0 (t : Fin cfg3.N) : Memref sig .tc .vmem S2000x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x128 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2000x128 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x256x128 .f32 := win3_6.stage (cfg3.slots t 6)
abbrev hs3_6 (t : Fin cfg3.N) : (ms3_6 t).IsWhole := hstage3_6 ((cfg3.slots t 6).cast nbuf3_6)

abbrev scM3_0 : Memref sig .tc .vmem S256x128 .f32 := Memref.whole cc3_scratch0

abbrev VS3_0 : View sig .tc .vmem S256x128 .f32 := scM3_0.view

theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section
variable (c : Dev nD) (i : grid3.Coords) (arg2 : Memref sig .tc .vmem S2000x256 .bf16) (harg2 : arg2.IsWhole) (arg3 : Memref sig .tc .vmem S2000x128 .bf16) (harg3 : arg3.IsWhole) (arg4 : Memref sig .tc .vmem S256x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S2000x128 .bf16) (harg7 : arg7.IsWhole) (arg8 : Memref sig .tc .vmem S1x256x128 .f32) (harg8 : arg8.IsWhole) (arg9 : Memref sig .tc .vmem S256x128 .f32) (harg9 : arg9.IsWhole)

set_option maxHeartbeats 4000000 in
noncomputable def kernelRun3_A (hc0 : cond3_0 i) (hc1 : ¬cond3_1 i)
    (x0 : Vec F S2000x256 .bf16) (x1 : Vec F S2000x128 .bf16) (x2 : Vec F S256x128 .f32) (x3 : Vec F S128x128 .bf16) (x4 : Vec F S128x128 .bf16) :
    Σ' (L5 : List (View.Piece (Elt F) S2000x128 .bf16)) (L6 : List (View.Piece (Elt F) S1x256x128 .f32)), { LS0 : List (View.Piece (Elt F) S256x128 .f32) //
      ∀ (xi6 : Vec F S1x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc3__layer_k1_kernel i arg2 harg2 arg3 harg3 arg4 harg4 arg5 harg5 arg6 harg6 arg7 harg7 arg8 harg8 arg9 harg9) K } := by
  refine ⟨?_, [], ?_, fun xi6 E K => ?run⟩
  case run =>
    simp only [cc3__layer_k1_kernel_eq_skeleton]; unfold cc3__layer_k1_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

set_option maxHeartbeats 4000000 in
noncomputable def kernelRun3_B (hc0 : ¬cond3_0 i) (hc1 : ¬cond3_1 i)
    (x0 : Vec F S2000x256 .bf16) (x1 : Vec F S2000x128 .bf16) (x2 : Vec F S256x128 .f32) (x3 : Vec F S128x128 .bf16) (x4 : Vec F S128x128 .bf16) (xs0 : Vec F S256x128 .f32) :
    Σ' (L5 : List (View.Piece (Elt F) S2000x128 .bf16)) (L6 : List (View.Piece (Elt F) S1x256x128 .f32)), { LS0 : List (View.Piece (Elt F) S256x128 .f32) //
      ∀ (xi6 : Vec F S1x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc3__layer_k1_kernel i arg2 harg2 arg3 harg3 arg4 harg4 arg5 harg5 arg6 harg6 arg7 harg7 arg8 harg8 arg9 harg9) K } := by
  refine ⟨?_, [], ?_, fun xi6 E K => ?run⟩
  case run =>
    simp only [cc3__layer_k1_kernel_eq_skeleton]; unfold cc3__layer_k1_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

set_option maxHeartbeats 4000000 in
noncomputable def kernelRun3_C (hc0 : ¬cond3_0 i) (hc1 : cond3_1 i)
    (x0 : Vec F S2000x256 .bf16) (x1 : Vec F S2000x128 .bf16) (x2 : Vec F S256x128 .f32) (x3 : Vec F S128x128 .bf16) (x4 : Vec F S128x128 .bf16) (xs0 : Vec F S256x128 .f32) :
    Σ' (L5 : List (View.Piece (Elt F) S2000x128 .bf16)) (L6 : List (View.Piece (Elt F) S1x256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc3__layer_k1_kernel i arg2 harg2 arg3 harg3 arg4 harg4 arg5 harg5 arg6 harg6 arg7 harg7 arg8 harg8 arg9 harg9) K } := by
  refine ⟨?_, ?_, ?_, fun E K => ?run⟩
  case run =>
    simp only [cc3__layer_k1_kernel_eq_skeleton]; unfold cc3__layer_k1_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end

end Cert.KernelIdeal.Frm

end
-- ==== Proof.KI.Reg3.lean ====
import proofs.«424668_j14448269984047_2_alg».proof.Proof.KI.Reg3Runs
import proofs.«424668_j14448269984047_2_alg».proof.Proof.Gen.KernelIdeal.Launch
import proofs.«424668_j14448269984047_2_alg».proof.Proof.Gen.KernelIdeal.Skeleton
import proofs.«424668_j14448269984047_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section
variable (c : Dev nD) (i : grid3.Coords) (arg2 : Memref sig .tc .vmem S2000x256 .bf16) (harg2 : arg2.IsWhole) (arg3 : Memref sig .tc .vmem S2000x128 .bf16) (harg3 : arg3.IsWhole) (arg4 : Memref sig .tc .vmem S256x128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S2000x128 .bf16) (harg7 : arg7.IsWhole) (arg8 : Memref sig .tc .vmem S1x256x128 .f32) (harg8 : arg8.IsWhole) (arg9 : Memref sig .tc .vmem S256x128 .f32) (harg9 : arg9.IsWhole)

section
variable (hc0 : cond3_0 i) (hc1 : ¬cond3_1 i) (x0 : Vec F S2000x256 .bf16) (x1 : Vec F S2000x128 .bf16) (x2 : Vec F S256x128 .f32) (x3 : Vec F S128x128 .bf16) (x4 : Vec F S128x128 .bf16)

theorem cover3_A_5 (y : S2000x128.Idx) :
    ∃ pc ∈ (kernelRun3_A c i arg2 harg2 arg3 harg3 arg4 harg4 arg5 harg5 arg6 harg6 arg7 harg7 arg8 harg8 arg9 harg9 hc0 hc1 x0 x1 x2 x3 x4).1, y ∈ pc.1.set :=
  View.cover_of_tiledL _ S2000x128.size (by sl_kernel_rfl) y

def out3_A_5 : Vec F S2000x128 .bf16 :=
  VO3_5.read (Elt F) (VO3_5.writes (Elt F) VO3_5.junk (kernelRun3_A c i arg2 harg2 arg3 harg3 arg4 harg4 arg5 harg5 arg6 harg6 arg7 harg7 arg8 harg8 arg9 harg9 hc0 hc1 x0 x1 x2 x3 x4).1)

def out3_A_6 : Vec F S1x256x128 .f32 :=
  VO3_6.read (Elt F) (VO3_6.writes (Elt F) VO3_6.junk (kernelRun3_A c i arg2 harg2 arg3 harg3 arg4 harg4 arg5 harg5 arg6 harg6 arg7 harg7 arg8 harg8 arg9 harg9 hc0 hc1 x0 x1 x2 x3 x4).2.1)

theorem scover3_A_0 (y : S256x128.Idx) :
    ∃ pc ∈ (kernelRun3_A c i arg2 harg2 arg3 harg3 arg4 harg4 arg5 harg5 arg6 harg6 arg7 harg7 arg8 harg8 arg9 harg9 hc0 hc1 x0 x1 x2 x3 x4).2.2.1, y ∈ pc.1.set :=
  View.cover_of_tiledL _ S256x128.size (by sl_kernel_rfl) y

def sout3_A_0 : Vec F S256x128 .f32 :=
  VS3_0.read (Elt F) (VS3_0.writes (Elt F) VS3_0.junk (kernelRun3_A c i arg2 harg2 arg3 harg3 arg4 harg4 arg5 harg5 arg6 harg6 arg7 harg7 arg8 harg8 arg9 harg9 hc0 hc1 x0 x1 x2 x3 x4).2.2.1)

end

section
variable (hc0 : ¬cond3_0 i) (hc1 : ¬cond3_1 i) (x0 : Vec F S2000x256 .bf16) (x1 : Vec F S2000x128 .bf16) (x2 : Vec F S256x128 .f32) (x3 : Vec F S128x128 .bf16) (x4 : Vec F S128x128 .bf16) (xs0 : Vec F S256x128 .f32)

theorem cover3_B_5 (y : S2000x128.Idx) :
    ∃ pc ∈ (kernelRun3_B c i arg2 harg2 arg3 harg3 arg4 harg4 arg5 harg5 arg6 harg6 arg7 harg7 arg8 harg8 arg9 harg9 hc0 hc1 x0 x1 x2 x3 x4 xs0).1, y ∈ pc.1.set :=
  View.cover_of_tiledL _ S2000x128.size (by sl_kernel_rfl) y

def out3_B_5 : Vec F S2000x128 .bf16 :=
  VO3_5.read (Elt F) (VO3_5.writes (Elt F) VO3_5.junk (kernelRun3_B c i arg2 harg2 arg3 harg3 arg4 harg4 arg5 harg5 arg6 harg6 arg7 harg7 arg8 harg8 arg9 harg9 hc0 hc1 x0 x1 x2 x3 x4 xs0).1)

def out3_B_6 : Vec F S1x256x128 .f32 :=
  VO3_6.read (Elt F) (VO3_6.writes (Elt F) VO3_6.junk (kernelRun3_B c i arg2 harg2 arg3 harg3 arg4 harg4 arg5 harg5 arg6 harg6 arg7 harg7 arg8 harg8 arg9 harg9 hc0 hc1 x0 x1 x2 x3 x4 xs0).2.1)

theorem scover3_B_0 (y : S256x128.Idx) :
    ∃ pc ∈ (kernelRun3_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL _ S256x128.size (by sl_kernel_rfl) y

def sout3_B_0 : Vec F S256x128 .f32 :=
  VS3_0.read (Elt F) (VS3_0.writes (Elt F) VS3_0.junk (kernelRun3_B c i arg2 harg2 arg3 harg3 arg4 harg4 arg5 harg5 arg6 harg6 arg7 harg7 arg8 harg8 arg9 harg9 hc0 hc1 x0 x1 x2 x3 x4 xs0).2.2.1)

end

section
variable (hc0 : ¬cond3_0 i) (hc1 : cond3_1 i) (x0 : Vec F S2000x256 .bf16) (x1 : Vec F S2000x128 .bf16) (x2 : Vec F S256x128 .f32) (x3 : Vec F S128x128 .bf16) (x4 : Vec F S128x128 .bf16) (xs0 : Vec F S256x128 .f32)

theorem cover3_C_5 (y : S2000x128.Idx) :
    ∃ pc ∈ (kernelRun3_C c i arg2 harg2 arg3 harg3 arg4 harg4 arg5 harg5 arg6 harg6 arg7 harg7 arg8 harg8 arg9 harg9 hc0 hc1 x0 x1 x2 x3 x4 xs0).1, y ∈ pc.1.set :=
  View.cover_of_tiledL _ S2000x128.size (by sl_kernel_rfl) y

def out3_C_5 : Vec F S2000x128 .bf16 :=
  VO3_5.read (Elt F) (VO3_5.writes (Elt F) VO3_5.junk (kernelRun3_C c i arg2 harg2 arg3 harg3 arg4 harg4 arg5 harg5 arg6 harg6 arg7 harg7 arg8 harg8 arg9 harg9 hc0 hc1 x0 x1 x2 x3 x4 xs0).1)

theorem cover3_C_6 (y : S1x256x128.Idx) :
    ∃ pc ∈ (kernelRun3_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL _ S1x256x128.size (by sl_kernel_rfl) y

def out3_C_6 : Vec F S1x256x128 .f32 :=
  VO3_6.read (Elt F) (VO3_6.writes (Elt F) VO3_6.junk (kernelRun3_C c i arg2 harg2 arg3 harg3 arg4 harg4 arg5 harg5 arg6 harg6 arg7 harg7 arg8 harg8 arg9 harg9 hc0 hc1 x0 x1 x2 x3 x4 xs0).2.1)

theorem scover3_C_0 (y : S256x128.Idx) :
    ∃ pc ∈ (kernelRun3_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL _ S256x128.size (by sl_kernel_rfl) y

def sout3_C_0 : Vec F S256x128 .f32 :=
  VS3_0.read (Elt F) (VS3_0.writes (Elt F) VS3_0.junk (kernelRun3_C c i arg2 harg2 arg3 harg3 arg4 harg4 arg5 harg5 arg6 harg6 arg7 harg7 arg8 harg8 arg9 harg9 hc0 hc1 x0 x1 x2 x3 x4 xs0).2.2.1)

end

end

def outsAt3 (c : Dev nD) : (n : ℕ) → n < cfg3.N → Vec F S2000x128 .bf16 × Vec F S1x256x128 .f32 × Vec F S256x128 .f32
  | 0, hn =>
      (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩),
       out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩),
       sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 25 = 0 then
      if h1 : (n + 1) % 25 = 24 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩),
       out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩),
       sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if h1 : (n + 1) % 25 = 24 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2,
       out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2,
       sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2,
       out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2,
       sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)

theorem outsAt3_A (c : Dev nD) (t : Fin cfg3.N) (h0 : t.val % 25 = 0) (h1 : ¬t.val % 25 = 24) :
    outsAt3 V c t.val t.isLt =
      (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t),
       out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t),
       sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

theorem outsAt3_B (c : Dev nD) (t : Fin cfg3.N) (h0 : ¬t.val % 25 = 0) (h1 : ¬t.val % 25 = 24) :
    outsAt3 V c t.val t.isLt =
      (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2,
       out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2,
       sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 25 = 0) (h1 : t.val % 25 = 24) :
    outsAt3 V c t.val t.isLt =
      (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2,
       out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2,
       sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

theorem owns_of_cover3 {sh : Shape} {e : EltTy} (c : Dev nD) (m : Memref sig .tc .vmem sh e) (W : View sig .tc .vmem sh e) (L : List (View.Piece (Elt F) sh e))
    (h : ∀ y, ∃ pc ∈ L, y ∈ pc.1.set) (f : m.view.ty.Contents (Elt F)) :
    (m.view.loc (c : Thread nD τ) ↦[m.view.set]{fullShare} m.view.writes (Elt F) f L : sProp 𝕄) ⊢ owns (c : Thread nD τ) m fullShare (W.read (Elt F) (W.writes (Elt F) W.junk L)) := by
  unfold owns; iintro H; iexists _; isplitr
  swap; · iexact H
  ipureintro; exact View.read_writes_of_cover _ _ _ _ _ h

theorem leaves3 (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

theorem Phi_out3 (c : Dev nD) (t : Fin (cfg3.N + 1)) : (dat3 V c).Φ t ⊢ (Pipeline.ΦA spec3 c : sProp 𝕄) := by
  rw [show (dat3 V c).Φ t = PhiS3 V c t.val (Nat.le_of_lt_succ t.isLt) from rfl]
  by_cases ht : t.val = 0
  · rw [PhiS3_zero V c _ _ ht]; try exact Idealize.SL.BI.Entails.refl _
  · rw [PhiS3_pos V c _ _ ht, PhiA3_eq]
    iintro ⟨⟨HS0, Hr⟩, Hg⟩
    isplitl [HS0 Hr]
    · isplitl [HS0]
      · iexists _; iexact HS0
      iexact Hr
    iexact Hg

set_option maxHeartbeats 16000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [leaves3 V c 0 t (liveAt3_0 t), leaves3 V c 1 t (liveAt3_1 t), leaves3 V c 2 t (liveAt3_2 t),
    leaves3 V c 3 t (liveAt3_3 t), leaves3 V c 4 t (liveAt3_4 t), leaves3 V c 5 t (liveAt3_5 t), after3_5]
  by_cases h0 : t.val % 25 = 0
  · have h1 : ¬t.val % 25 = 24 := by omega
    rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h))), outsAt3_A V c t h0 h1]
    unfold out3_A_5 sout3_A_0; (try dsimp only)
    refine (sep_mono (Phi_out3 V c t.castSucc) .rfl).trans ?_
    rw [PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, ⟨%e5, H5⟩, H6, ⟨%es0, HS0⟩⟩
    isplitl [HS0 Hr Hg]
    · isplitl [HS0 Hr]
      · isplitl [HS0]
        · iapply owns_of_cover3 c _ _ _ (fun y => scover3_A_0 (y := y) ..) _; iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply owns_of_cover3 c _ _ _ (fun y => cover3_A_5 (y := y) ..) _; iexact H5
    iexists _; iexact H6
  · have hz : t.val ≠ 0 := by omega
    rw [PhiS3_castSucc V c t, PhiS3_pos V c _ _ hz]
    by_cases h1 : t.val % 25 = 24
    · rw [leaves3 V c 6 t (liveAt3_6_C t (fun h => h0 ((hcond3_0 t).mp h)) ((hcond3_1 t).mpr h1)), after3_6, outsAt3_C V c t h0 h1]
      unfold out3_C_5 out3_C_6 sout3_C_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hr Hg]
      · isplitl [HS0 Hr]
        · isplitl [HS0]
          · iapply owns_of_cover3 c _ _ _ (fun y => scover3_C_0 (y := y) ..) _; iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply owns_of_cover3 c _ _ _ (fun y => cover3_C_5 (y := y) ..) _; iexact H5
      iapply owns_of_cover3 c _ _ _ (fun y => cover3_C_6 (y := y) ..) _; iexact H6
    · rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h))), outsAt3_B V c t h0 h1]
      unfold out3_B_5 sout3_B_0; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hr Hg]
      · isplitl [HS0 Hr]
        · isplitl [HS0]
          · iapply owns_of_cover3 c _ _ _ (fun y => scover3_B_0 (y := y) ..) _; iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply owns_of_cover3 c _ _ _ (fun y => cover3_B_5 (y := y) ..) _; iexact H5
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ (Pipeline.ΦA spec3 c : sProp 𝕄) :=
  Phi_out3 V c _

end Cert.KernelIdeal.Frm

end
-- ==== Proof.KI.Reg5.lean ====
import proofs.«424668_j14448269984047_2_alg».proof.Proof.Gen.KernelIdeal.Launch
import proofs.«424668_j14448269984047_2_alg».proof.Proof.Gen.KernelIdeal.Skeleton
import proofs.«424668_j14448269984047_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x128 := Rect.unit (s := S2000x128) ![0, 0] S2000x128.size inb_S2000x128_S2000x128_0_0
abbrev r5_1 : Rect S256x128 := Rect.unit (s := S256x128) ![0, 0] S256x128.size inb_S256x128_S256x128_0_0
abbrev r5_2 : Rect S2000x256 := Rect.unit (s := S2000x256) ![0, 0] S2000x256.size inb_S2000x256_S2000x256_0_0

def out5_2 (x0 : Vec F S2000x128 .bf16) (x1 : Vec F S256x128 .f32) : Vec F S2000x256 .f32 :=
  View.canon [⟨r5_2, k5_pay1 (View.ld x0 r5_0) (View.ld x1 r5_1)⟩]

theorem sound_kernel5 (c : Dev nD) (E : Set ℕ) (i : grid5.Coords) (arg0 : Memref sig .tc .vmem S2000x128 .bf16) (harg0 : arg0.IsWhole) (arg1 : Memref sig .tc .vmem S256x128 .f32) (harg1 : arg1.IsWhole) (arg2 : Memref sig .tc .vmem S2000x256 .f32) (harg2 : arg2.IsWhole)
    (x0 : Vec F S2000x128 .bf16) (x1 : Vec F S256x128 .f32) (K : PUnit → sProp 𝕄) :
    iprop(owns c arg0 fullShare x0 ∗ owns c arg1 fullShare x1 ∗ (∃ d, owns c arg2 fullShare d)
        ∗ (iprop(owns c arg0 fullShare x0 ∗ owns c arg1 fullShare x1 ∗ owns c arg2 fullShare (out5_2 x0 x1)) -∗ K ⟨⟩))
      ⊢ wp frame (wpE (defs₀ (F := F)) Variants.none c none) E (cc5__pred_kernel i arg0 harg0 arg1 harg1 arg2 harg2) K := by
  simp only [cc5__pred_kernel_eq_skeleton]; unfold cc5__pred_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x256.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem after5_2 (c : Dev nD) (t : Fin cfg5.N) : (dat5 V c).after 2 t = out5_2 (iblk5 V c 0 t) (iblk5 V c 1 t) := by dsimp only [dat5]

theorem body_obligation5 (c : Dev nD) : BodyObligation (dat5 (F := F) V c) (defs₀ (F := F)) Variants.none () Set.univ := fun t => by
  have hb := (dat5 V c).before_in_eq_fetched
  rw [bigSep_W5, bigSep_W5]
  show _ ⊢ wp _ _ _ (bodyAt5 t) fun _ => iprop((dat5 V c).Φ t.castSucc ∗ (dat5 V c).owesAt () t.castSucc ∗ _)
  simp only [hb 0 rfl (fun _ => rfl) (fun _ _ _ => rfl) (fun _ => rfl), hb 1 rfl (fun _ => rfl) (fun _ _ _ => rfl) (fun _ => rfl), after5_2]
  iintro ⟨HΦ, Ho, ⟨%_, H0⟩, ⟨%_, H1⟩, ⟨%_, H2⟩⟩
  iapply sound_kernel5 c Set.univ _ _ _ _ _ _ _ (iblk5 V c 0 t) (iblk5 V c 1 t) _
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Frm

end
-- ==== Proof.KI.Run.lean ====
import proofs.«424668_j14448269984047_2_alg».proof.Proof.KI.Reg0
import proofs.«424668_j14448269984047_2_alg».proof.Proof.KI.Reg1
import proofs.«424668_j14448269984047_2_alg».proof.Proof.KI.Reg2
import proofs.«424668_j14448269984047_2_alg».proof.Proof.KI.Reg3
import proofs.«424668_j14448269984047_2_alg».proof.Proof.KI.Reg4
import proofs.«424668_j14448269984047_2_alg».proof.Proof.KI.Reg5
import proofs.«424668_j14448269984047_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N :=
  Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) :=
  Pipeline.withArrays_of_ne spec0 c _ _ b hb
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N :=
  Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb
abbrev V3 : (c : Dev nD) → (b : Ref sig .tc) → Buf (Elt F) ((c : Thread nD τ).loc b) := fun c b => W3 m ρ c b
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N :=
  Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) :=
  Pipeline.withArrays_of_ne spec2 c _ _ b hb
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N :=
  Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) :=
  Pipeline.withArrays_of_ne spec3 c _ _ b hb
abbrev V6 : (c : Dev nD) → (b : Ref sig .tc) → Buf (Elt F) ((c : Thread nD τ).loc b) := fun c b => W6 m ρ c b
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N :=
  Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) :=
  Pipeline.withArrays_of_ne spec4 c _ _ b hb
abbrev V7 : (c : Dev nD) → (b : Ref sig .tc) → Buf (Elt F) ((c : Thread nD τ).loc b) := fun c b => W7 m ρ c b
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N :=
  Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) :=
  Pipeline.withArrays_of_ne spec5 c _ _ b hb

/-- A buffer the first two regions leave as found, that is no later region's array and that no host operation writes, ends at its launch contents. -/
theorem W8_keep (c : Dev nD) (b : Ref sig .tc)
    (h0 : W1 m ρ c (Proc.devRef .tc b) = W0 m ρ c (Proc.devRef .tc b))
    (h1 : W3 m ρ c (Proc.devRef .tc b) = W2 m ρ c (Proc.devRef .tc b))
    (h : (∀ w, Pipeline.arrRef spec5 w ≠ b) ∧ (∀ w, Pipeline.arrRef spec4 w ≠ b) ∧ (∀ w, Pipeline.arrRef spec3 w ≠ b)
      ∧ b ∉ hostOps3_W ∧ (∀ w, Pipeline.arrRef spec2 w ≠ b) ∧ b ∉ hostOps1_W) :
    W8 m ρ c (Proc.devRef .tc b) = m ((c : Thread nD τ).loc b) :=
  (W8_of_ne m ρ c b h.1).trans <| (W7_of_ne m ρ c b h.2.1).trans <| (W6_of_ne m ρ c b h.2.2.1).trans <|
    (StableHlo.after_of_writes_sub hostOps3 _ hostOps3_writes h.2.2.2.1).trans <| (W4_of_ne m ρ c b h.2.2.2.2.1).trans <|
    h1.trans <| (StableHlo.after_of_writes_sub hostOps1 _ hostOps1_writes h.2.2.2.2.2).trans h0
theorem W8_main_arg0 (c : Dev nD) : W8 m ρ c (Proc.devRef .tc main_arg0) = m ((c : Thread nD τ).loc main_arg0) :=
  W8_keep m ρ c _ (W1_of_ne m ρ c _ (by decide)) ((W3_arr m ρ c 1).trans (((dat1 (V2 m ρ) c).arrAt_in 1 rfl _).trans (A_eq1 (V2 m ρ) c 1))) (by decide)
theorem W8_main_arg1 (c : Dev nD) : W8 m ρ c (Proc.devRef .tc main_arg1) = m ((c : Thread nD τ).loc main_arg1) :=
  W8_keep m ρ c _ (W1_of_ne m ρ c _ (by decide)) (W3_of_ne m ρ c _ (by decide)) (by decide)
theorem W8_main_arg2 (c : Dev nD) : W8 m ρ c (Proc.devRef .tc main_arg2) = m ((c : Thread nD τ).loc main_arg2) :=
  W8_keep m ρ c _ ((W1_arr m ρ c 0).trans (((dat0 (V0 m ρ) c).arrAt_in 0 rfl _).trans (A_eq0 (V0 m ρ) c 0))) (W3_of_ne m ρ c _ (by decide)) (by decide)
theorem W8_main_arg3 (c : Dev nD) : W8 m ρ c (Proc.devRef .tc main_arg3) = m ((c : Thread nD τ).loc main_arg3) :=
  W8_keep m ρ c _ (W1_of_ne m ρ c _ (by decide)) (W3_of_ne m ρ c _ (by decide)) (by decide)
theorem W8_main_arg4 (c : Dev nD) : W8 m ρ c (Proc.devRef .tc main_arg4) = m ((c : Thread nD τ).loc main_arg4) :=
  W8_keep m ρ c _ (W1_of_ne m ρ c _ (by decide)) (W3_of_ne m ρ c _ (by decide)) (by decide)
theorem W8_main_arg5 (c : Dev nD) : W8 m ρ c (Proc.devRef .tc main_arg5) = m ((c : Thread nD τ).loc main_arg5) :=
  W8_keep m ρ c _ (W1_of_ne m ρ c _ (by decide)) (W3_of_ne m ρ c _ (by decide)) (by decide)
theorem W8_main_arg6 (c : Dev nD) : W8 m ρ c (Proc.devRef .tc main_arg6) = m ((c : Thread nD τ).loc main_arg6) :=
  W8_keep m ρ c _ (W1_of_ne m ρ c _ (by decide)) (W3_of_ne m ρ c _ (by decide)) (by decide)
theorem W8_main_arg7 (c : Dev nD) : W8 m ρ c (Proc.devRef .tc main_arg7) = m ((c : Thread nD τ).loc main_arg7) :=
  W8_keep m ρ c _ (W1_of_ne m ρ c _ (by decide)) (W3_of_ne m ρ c _ (by decide)) (by decide)
theorem W8_main_arg8 (c : Dev nD) : W8 m ρ c (Proc.devRef .tc main_arg8) = m ((c : Thread nD τ).loc main_arg8) :=
  W8_keep m ρ c _ (W1_of_ne m ρ c _ (by decide)) (W3_of_ne m ρ c _ (by decide)) (by decide)

def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V6 m ρ) c
  | ⟨5, _⟩ => fun c => dat5 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The record of region p, entered with the buffers at W and left with them at W'. -/
def reg (p : Fin 6) (kit : Pipeline.LaunchFacts (nD := nD) (τ := τ) cfgs p) (W W' : Dev nD → Valuation τ sig (Elt F))
    (hbody : ∀ c, Pipeline.BodyObligation (pdats m ρ p c) defs₀ 𝒱₀ () Set.univ)
    (hin : ∀ c, (Pipeline.ΦA (cfgs p).spec c : sProp 𝕄) ⊢ (pdats m ρ p c).Φ 0)
    (hout : ∀ c, (pdats m ρ p c).Φ (Fin.last _) ⊢ (Pipeline.ΦA (cfgs p).spec c : sProp 𝕄))
    (harr : ∀ c w, W' c (Proc.devRef .tc (Pipeline.arrRef (cfgs p).spec w)) = (pdats m ρ p c).arrAt w (cfgs p).N)
    (hne : ∀ c (b : Ref sig .tc), (∀ w, Pipeline.arrRef (cfgs p).spec w ≠ b) → W' c (Proc.devRef .tc b) = W c (Proc.devRef .tc b))
    (hA : ∀ c w, (pdats m ρ p c).A w = W c (Proc.devRef .tc (Pipeline.arrRef (cfgs p).spec w)) := by exact fun _ _ => rfl)
    (hq : ∀ c w, (pdats m ρ p c).share w = fullShare := by exact fun c => (pdats m ρ _ c).share_full fun _ => rfl)
    (howed : ∀ c t, (pdats m ρ p c).owed t = 0 := by exact fun _ _ => rfl)
    (hrec : ∀ c x, x ∈ (pdats m ρ p c).recorded 0 := by exact fun _ _ => trivial) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (W c ·)
  hentry c := by
    rw [Pipeline.ownSems0_none]
    have hsplit := Pipeline.arrays_of_unscopedBufs (p := p) (pcfgs (F := F)) adm (pdats m ρ) kit.win kit.arr_whole c (hq c) (W c ·) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun x _ => Or.inl (hrec c x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) (hq c) (W c ·) (W' c ·) ((pdats m ρ p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

abbrev Tₙ (c : Dev nD) : sProp 𝕄 := iprop(StableHlo.held (c : Thread nD τ) (Pipeline.ucRefs τ sig) (W8 m ρ c) ∗ ∃ r, prngReg c r)

abbrev segs : List (Pipeline.Seg (pcfgs (F := F)) adm (pdats m ρ) () defs₀ 𝒱₀ L lv) :=
  [ .region (reg m ρ 0 launch0 (W0 m ρ) (W1 m ρ) (body_obligation0 _) (fun _ => .rfl) (fun _ => .rfl) (W1_arr m ρ) (W1_of_ne m ρ)),
    .host (hseg hostOps1 hostOps1_sub hostOps1_fresh (W1 m ρ)),
    .region (reg m ρ 1 launch1 (W2 m ρ) (W3 m ρ) (body_obligation1 _) (hin1 _) (hout1 _) (W3_arr m ρ) (W3_of_ne m ρ)),
    .region (reg m ρ 2 launch2 (W3 m ρ) (W4 m ρ) (body_obligation2 _) (fun _ => .rfl) (fun _ => .rfl) (W4_arr m ρ) (W4_of_ne m ρ)),
    .host (hseg hostOps3 hostOps3_sub hostOps3_fresh (W4 m ρ)),
    .region (reg m ρ 3 launch3 (W5 m ρ) (W6 m ρ) (body_obligation3 _) (hin3 _) (hout3 _) (W6_arr m ρ) (W6_of_ne m ρ)),
    .region (reg m ρ 4 launch4 (W6 m ρ) (W7 m ρ) (body_obligation4 _) (fun _ => .rfl) (fun _ => .rfl) (W7_arr m ρ) (W7_of_ne m ρ)),
    .region (reg m ρ 5 launch5 (W7 m ρ) (W8 m ρ) (body_obligation5 _) (fun _ => .rfl) (fun _ => .rfl) (W8_arr m ρ) (W8_of_ne m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

end Cert.KernelIdeal.Frm

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (R C : Nat) : Type := (⟨2, ![R, C]⟩ : Shape).Idx → EReal
abbrev Ten (L R C : Nat) : Type := (⟨3, ![L, R, C]⟩ : Shape).Idx → EReal
abbrev RVec (E : Nat) : Type := (⟨1, ![E]⟩ : Shape).Idx → EReal
abbrev WVec (E : Nat) : Type := (⟨1, ![E]⟩ : Shape).Idx → BitVec 32

def eps : EReal := Ideal.ofBits .f32 0x2B8CBCCC#32

def rowLen {R C : Nat} (x : Mat R C) (r : Fin R) : EReal :=
  max eps (Ideal.sqrt (∑ k : Fin C, x (ix2 r k) * x (ix2 r k)))

def normRows {R C : Nat} (x : Mat R C) : Mat R C := fun i => Ideal.div (x i) (rowLen x (i 0))

def mm {R K C : Nat} (a : Mat R K) (b : Mat K C) : Mat R C :=
  fun i => ∑ k : Fin K, a (ix2 (i 0) k) * b (ix2 k (i 1))

def mmNT {R K C : Nat} (a : Mat R K) (b : Mat C K) : Mat R C :=
  fun i => ∑ k : Fin K, a (ix2 (i 0) k) * b (ix2 (i 1) k)

def act (relu : Bool) {R C : Nat} (x : Mat R C) : Mat R C := fun i => if relu then max (x i) 0 else x i

def layerOf (l : Fin 2) (W : Ten 2 128 128) : Mat 128 128 := fun i => W (ix3 l (i 0) (i 1))

def update {R : Nat} (relu : Bool) (agg own : Mat R 128) (Wagg Wown : Mat 128 128) : Mat R 128 :=
  normRows (act relu (fun i => mm agg Wagg i + mm own Wown i))

-- The position sd · 256 + st of edge e in a 100000 x 256 matrix laid out row by row, in 32-bit arithmetic.
def flatPos (sd st : WVec 800000) (e : Fin 800000) : BitVec 32 :=
  let p := IntOp.addi (IntOp.muli (sd (ix1 e)) 256#32) (st (ix1 e))
  Scalar.select (IntOp.cmpi .slt p 0#32) (IntOp.addi p 25600000#32) p

def adjFlat (sd st : WVec 800000) (ev : RVec 800000) : Mat 100000 256 :=
  fun i => ∑ e : Fin 800000, if (flatPos sd st e).toInt = (((i 0).val * 256 + (i 1).val : ℕ) : ℤ) then ev (ix1 e) else 0

def tileRow (h : Fin 2) (j : Fin 25) (r : Fin 2000) : Fin 100000 :=
  ⟨(h.val * 25 + j.val) * 2000 + r.val, by have := h.isLt; have := j.isLt; have := r.isLt; omega⟩

-- Per half of the data rows, the transpose of A times xd, summed over 25 tiles of 2000 rows.
def aggHalves (A : Mat 100000 256) (xd : Mat 100000 128) : Ten 2 256 128 :=
  fun i => ∑ j : Fin 25, ∑ r : Fin 2000, A (ix2 (tileRow (i 0) j r) (i 1)) * xd (ix2 (tileRow (i 0) j r) (i 2))

def addHalves (P : Ten 2 256 128) : Mat 256 128 := fun i => P (ix3 0 (i 0) (i 1)) + P (ix3 1 (i 0) (i 1))

def dataStep (relu : Bool) (A : Mat 100000 256) (xd : Mat 100000 128) (xt : Mat 256 128) (Wt2d Wsd : Mat 128 128) :
    Mat 100000 128 :=
  update relu (mm A xt) xd Wt2d Wsd

def taskStep (relu : Bool) (P : Ten 2 256 128) (xt : Mat 256 128) (Wd2t Wst : Mat 128 128) : Mat 256 128 :=
  update relu (addHalves P) xt Wd2t Wst

structure Results where
  pred : Mat 100000 256
  dataEmb : Mat 100000 128
  taskEmb : Mat 256 128

def viaMatrix (gf : Mat 100000 128) (ev : RVec 800000) (te : Mat 256 128) (Wd2t Wt2d Wsd Wst : Ten 2 128 128)
    (sd st : WVec 800000) : Results :=
  let A := adjFlat sd st ev
  let xt0 := normRows te
  let xd0 := normRows gf
  let xd1 := dataStep true A xd0 xt0 (layerOf 0 Wt2d) (layerOf 0 Wsd)
  let xt1 := taskStep true (aggHalves A xd0) xt0 (layerOf 0 Wd2t) (layerOf 0 Wst)
  let xd2 := dataStep false A xd1 xt1 (layerOf 1 Wt2d) (layerOf 1 Wsd)
  let xt2 := taskStep false (aggHalves A xd1) xt1 (layerOf 1 Wd2t) (layerOf 1 Wst)
  ⟨mmNT xd2 xt2, xd0, xt0⟩

-- A word read as one of N row numbers: a negative word moved up by N, the result held inside 0 … N − 1.
def lookupRow (N : Nat) (hN : 0 < N) (w : BitVec 32) : Fin N :=
  ⟨min (Scalar.select (IntOp.cmpi .slt w 0#32) (IntOp.addi w (BitVec.ofNat 32 N)) w).toInt.toNat (N - 1), by omega⟩

def toTasks (sd st : WVec 800000) (ev : RVec 800000) (xd : Mat 100000 128) : Mat 256 128 :=
  fun i => ∑ e : Fin 800000, if (st (ix1 e)).toInt = ((i 0).val : ℤ)
    then xd (ix2 (lookupRow 100000 (by decide) (sd (ix1 e))) (i 1)) * ev (ix1 e) else 0

def toData (sd st : WVec 800000) (ev : RVec 800000) (xt : Mat 256 128) : Mat 100000 128 :=
  fun i => ∑ e : Fin 800000, if (sd (ix1 e)).toInt = ((i 0).val : ℤ)
    then xt (ix2 (lookupRow 256 (by decide) (st (ix1 e))) (i 1)) * ev (ix1 e) else 0

def edgeByEdge (gf : Mat 100000 128) (ev : RVec 800000) (te : Mat 256 128) (Wd2t Wt2d Wsd Wst : Ten 2 128 128)
    (sd st : WVec 800000) : Results :=
  let xt0 := normRows te
  let xd0 := normRows gf
  let xt1 := update true (toTasks sd st ev xd0) xt0 (layerOf 0 Wd2t) (layerOf 0 Wst)
  let xd1 := update true (toData sd st ev xt0) xd0 (layerOf 0 Wt2d) (layerOf 0 Wsd)
  let xt2 := update false (toTasks sd st ev xd1) xt1 (layerOf 1 Wd2t) (layerOf 1 Wst)
  let xd2 := update false (toData sd st ev xt1) xd1 (layerOf 1 Wt2d) (layerOf 1 Wsd)
  ⟨mmNT xd2 xt2, xd0, xt0⟩

def AllReal {S : Shape} (x : S.Idx → EReal) : Prop := ∀ i, ∃ r : ℝ, x i = (r : EReal)

def InRange (N : Nat) (w : WVec 800000) : Prop := ∀ e : Fin 800000, 0 ≤ (w (ix1 e)).toInt ∧ (w (ix1 e)).toInt < (N : ℤ)

end Cert.Spec

end
-- ==== Proof.KI.Val0.lean ====
import proofs.«424668_j14448269984047_2_alg».proof.Proof.KI.Reg0
import proofs.«424668_j14448269984047_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Val

open Cert.KernelIdeal Cert.KernelIdeal.Gen Cert.KernelIdeal.Frm Idealize.ShloMosaic.ValueIdx
open Idealize.ShloMosaic Idealize.ShloMosaic.TcCoe Idealize.SL.Sem
open Idealize.ShloMosaic.Pipeline (Dat)

namespace R0

theorem cast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem row_sum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (funext fun ax => Fin.ext (by
      match ax with
      | ⟨0, _⟩ => rfl
      | ⟨1, _⟩ => rfl)))

/-- Every row of a 256 x 128 array over its floored Euclidean length, at an entry. -/
theorem norm_tail_apply (Y : FVec Ideal S256x128 .f32) (r : Fin 256) (q : Fin 128) :
    divf Y (broadcastTo S256x128 (maximumf (broadcast S256x1 (Scalar.ofBits .f32 0x2B8CBCCC#32))
      (sqrt (shapeCast S256x1 (multiReduction .add [1] S256 (mulf Y Y) 0x00000000#32 reduces_S256x128_S256 (.inl rfl) rfl) shapeCasts_S256_S256x1)))
      broadcasts_S256x1_S256x128) (ix2 r q) = Cert.Spec.normRows Y (ix2 r q) := by
  show Ideal.div (Y (ix2 r q)) (broadcastTo S256x128 _ broadcasts_S256x1_S256x128 (ix2 r q)) = Ideal.div (Y (ix2 r q)) (Cert.Spec.rowLen Y r)
  rw [bcast_col_apply]
  show Ideal.div (Y (ix2 r q)) (max (Ideal.ofBits .f32 0x2B8CBCCC#32) (Ideal.sqrt (shapeCast S256x1 _ shapeCasts_S256_S256x1 (ix2 r (0 : Fin 1))))) = _
  rw [cast_col_apply]
  exact congrArg (fun z => Ideal.div (Y (ix2 r q)) (max (Ideal.ofBits .f32 0x2B8CBCCC#32) (Ideal.sqrt z)))
    (row_sum_apply (mulf Y Y) reduces_S256x128_S256 (.inl rfl) rfl r)

theorem hz2 : (![0, 0] : Fin 2 → Nat) = fun _ => 0 := funext fun a => by fin_cases a <;> rfl

theorem read_zero (b : Ref sig .tc) {ix : Fin b.ty.shape.rank → ℕ} (h : ∀ a, ix a = 0)
    (inb : ∀ a, ix a * b.ty.shape.size a + b.ty.shape.size a ≤ b.ty.shape.size a) (G : b.ty.Contents (Elt Ideal)) :
    ((Memref.whole b).access (Rect.unit (fun a => ix a * b.ty.shape.size a) b.ty.shape.size inb) : View sig .tc _ _ _).read (Elt Ideal) G = G :=
  Memref.read_access_unit_zero _ b (funext fun a => by rw [h a, Nat.zero_mul]) inb G

theorem mem_zero (b : Ref sig .tc) {ix : Fin b.ty.shape.rank → ℕ} (h : ∀ a, ix a = 0)
    (inb : ∀ a, ix a * b.ty.shape.size a + b.ty.shape.size a ≤ b.ty.shape.size a) (i : b.ty.shape.Idx) :
    i ∈ ((View.whole b).slice (Rect.unit (fun a => ix a * b.ty.shape.size a) b.ty.shape.size inb)).set := by
  rw [View.set_slice_whole, Rect.mem_set_unit]
  intro a
  simp only [h a, Nat.zero_mul, Nat.zero_add, Nat.zero_le, true_and]
  exact (i a).isLt

theorem pay0_eq (x : FVec Ideal S256x128 .f32) : k0_pay1 (F := Ideal) x = Cert.Spec.normRows x := by
  funext j
  obtain ⟨p, q, rfl⟩ : ∃ (p : Fin 256) (q : Fin 128), j = ix2 p q := ⟨j 0, j 1, eq_ix2 j⟩
  exact norm_tail_apply x p q

theorem idx0 : ∀ t : Fin cfg0.N, (∀ a, win0_0.index t a = 0) ∧ ∀ a, win0_1.index t a = 0 :=
  (by decide +kernel : ∀ t : Fin grid0.N, _)

end R0

open R0

variable (V : (c : Dev nD) → (b : Ref sig .tc) → Buf (Elt Ideal) ((c : Thread nD τ).loc b))

theorem final0 (c : Dev nD) : (dat0 (F := Ideal) V c).arrAt 1 cfg0.N = Cert.Spec.normRows (V c main_arg2) :=
  (dat0 V c).arrAt_eq_of_cover 1 _ (fun t _ => by
    refine Eq.trans ?_ (read_zero main_v0 (idx0 t).2 _ _).symm
    show (cfg0.win 1).cut (grid0.coords t) ((dat0 V c).after 1 t) = _
    rw [after0_1]
    unfold out0_1
    rw [View.canon_unit_zero hz2]
    simp only [View.ld_unit_zero (S := S256x128) hz2]
    rw [pay0_eq, show (iblk0 V c 0 t : S256x128.Idx → EReal) = V c main_arg2 from read_zero main_arg2 (idx0 t).1 _ _]
    rfl)
    fun i => ⟨⟨0, by decide⟩, flush0_1 _, mem_zero main_v0 (idx0 _).2 _ i⟩

end Cert.KernelIdeal.Val

end
-- ==== Proof.KI.Val1Pieces.lean ====
import proofs.«424668_j14448269984047_2_alg».proof.Proof.KI.Reg1
import Idealize.ShloMosaic.Lib.Pipeline.Value

set_option maxRecDepth 16384

noncomputable section

namespace Cert.KernelIdeal.Val.R1

open Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2_1 : (![0, 0] : Fin 2 → Nat) = fun _ => 0 := funext fun a => by fin_cases a <;> rfl
theorem hz3_1 : (![0, 0, 0] : Fin 3 → Nat) = fun _ => 0 := funext fun a => by fin_cases a <;> rfl

variable (V : (c : Dev nD) → (b : Ref sig .tc) → Buf (Elt F) ((c : Thread nD τ).loc b))

abbrev blkA1 (c : Dev nD) (t : Fin cfg1.N) : Vec F S2000x256 .bf16 := iblk1 V c 0 t
abbrev blkX1 (c : Dev nD) (t : Fin cfg1.N) : Vec F S2000x128 .f32 := iblk1 V c 1 t
abbrev blkT1 (c : Dev nD) (t : Fin cfg1.N) : Vec F S256x128 .f32 := iblk1 V c 2 t
abbrev blkWt1 (c : Dev nD) (t : Fin cfg1.N) : Vec F S128x128 .bf16 := iblk1 V c 3 t
abbrev blkWs1 (c : Dev nD) (t : Fin cfg1.N) : Vec F S128x128 .bf16 := iblk1 V c 4 t

theorem caseA (c : Dev nD) (t : Fin cfg1.N) (h0 : t.val % 25 = 0) (h1 : ¬t.val % 25 = 24) :
    (outsAt1 V c t.val t.isLt).1 = k1_pay1 (k1_pay5 (blkX1 V c t)) (k1_pay8 (blkA1 V c t) (blkT1 V c t) (blkWt1 V c t)) (k1_pay9 (blkWs1 V c t))
      ∧ (outsAt1 V c t.val t.isLt).2.1 = k1_pay4 (blkX1 V c t)
      ∧ (outsAt1 V c t.val t.isLt).2.2.2 = k1_pay7 (blkX1 V c t) (blkA1 V c t) (k1_pay3 (F := F)) := by
  rw [outsAt1_A V c t h0 h1]; unfold ptA1 out1_A_5 out1_A_6 sout1_A_0; dsimp only
  rw [View.read_writes_eq_canon _ _ _ (fun _ => cover1_A_5 ..), View.read_writes_eq_canon _ _ _ (fun _ => cover1_A_6 ..),
    View.read_writes_eq_canon _ _ _ (fun _ => scover1_A_0 ..)]
  unfold kernelRun1_A
  dsimp only
  sl_unfold_words
  simp only [View.canon_unit_zero (S := S2000x128) hz2_1, View.canon_cons_unit_zero (S := S256x128) hz2_1, View.readCov_unit_zero (S := S256x128) _ hz2_1, View.readAt_eq_ld, (hs1_0 t).read_unread, (hs1_1 t).read_unread, (hs1_2 t).read_unread, (hs1_3 t).read_unread, (hs1_4 t).read_unread, (Memref.isWhole_whole _ : scM1_0.IsWhole).read_unread, View.ld_unit_zero (S := S2000x256) hz2_1, View.ld_unit_zero (S := S2000x128) hz2_1, View.ld_unit_zero (S := S256x128) hz2_1, View.ld_unit_zero (S := S128x128) hz2_1, _root_.and_self]

theorem caseB (c : Dev nD) (t : Fin cfg1.N) (h0 : ¬t.val % 25 = 0) (h1 : ¬t.val % 25 = 24) :
    (outsAt1 V c t.val t.isLt).1 = k1_pay1 (k1_pay5 (blkX1 V c t)) (k1_pay8 (blkA1 V c t) (blkT1 V c t) (blkWt1 V c t)) (k1_pay9 (blkWs1 V c t))
      ∧ (outsAt1 V c t.val t.isLt).2.1 = k1_pay4 (blkX1 V c t)
      ∧ (outsAt1 V c t.val t.isLt).2.2.2 = k1_pay7 (blkX1 V c t) (blkA1 V c t) (outsAt1 V c (t.val - 1) (Nat.lt_of_le_of_lt (Nat.sub_le _ _) t.isLt)).2.2.2 := by
  rw [outsAt1_B V c t h0 h1]; unfold ptB1 out1_B_5 out1_B_6 sout1_B_0; dsimp only
  rw [View.read_writes_eq_canon _ _ _ (fun _ => cover1_B_5 ..), View.read_writes_eq_canon _ _ _ (fun _ => cover1_B_6 ..),
    View.read_writes_eq_canon _ _ _ (fun _ => scover1_B_0 ..)]
  unfold kernelRun1_B
  dsimp only
  simp only [View.canon_unit_zero (S := S2000x128) hz2_1, View.canon_unit_zero (S := S256x128) hz2_1, View.readAt_eq_ld, (hs1_0 t).read_unread, (hs1_1 t).read_unread, (hs1_2 t).read_unread, (hs1_3 t).read_unread, (hs1_4 t).read_unread, (Memref.isWhole_whole _ : scM1_0.IsWhole).read_unread, View.ld_unit_zero (S := S2000x256) hz2_1, View.ld_unit_zero (S := S2000x128) hz2_1, View.ld_unit_zero (S := S256x128) hz2_1, View.ld_unit_zero (S := S128x128) hz2_1, _root_.and_self]

theorem caseC (c : Dev nD) (t : Fin cfg1.N) (h0 : ¬t.val % 25 = 0) (h1 : t.val % 25 = 24) :
    (outsAt1 V c t.val t.isLt).1 = k1_pay1 (k1_pay5 (blkX1 V c t)) (k1_pay8 (blkA1 V c t) (blkT1 V c t) (blkWt1 V c t)) (k1_pay9 (blkWs1 V c t))
      ∧ (outsAt1 V c t.val t.isLt).2.1 = k1_pay4 (blkX1 V c t)
      ∧ (outsAt1 V c t.val t.isLt).2.2.2 = k1_pay7 (blkX1 V c t) (blkA1 V c t) (outsAt1 V c (t.val - 1) (Nat.lt_of_le_of_lt (Nat.sub_le _ _) t.isLt)).2.2.2 := by
  rw [outsAt1_C V c t h0 h1]; unfold ptC1 out1_C_5 out1_C_6 sout1_C_0; dsimp only
  rw [View.read_writes_eq_canon _ _ _ (fun _ => cover1_C_5 ..), View.read_writes_eq_canon _ _ _ (fun _ => cover1_C_6 ..),
    View.read_writes_eq_canon _ _ _ (fun _ => scover1_C_0 ..)]
  unfold kernelRun1_C
  dsimp only
  sl_unfold_words
  simp only [View.canon_unit_zero (S := S2000x128) hz2_1, View.canon_unit_zero (S := S256x128) hz2_1, View.readAt_eq_ld, (hs1_0 t).read_unread, (hs1_1 t).read_unread, (hs1_2 t).read_unread, (hs1_3 t).read_unread, (hs1_4 t).read_unread, (Memref.isWhole_whole _ : scM1_0.IsWhole).read_unread, View.ld_unit_zero (S := S2000x256) hz2_1, View.ld_unit_zero (S := S2000x128) hz2_1, View.ld_unit_zero (S := S256x128) hz2_1, View.ld_unit_zero (S := S128x128) hz2_1, _root_.and_self]

theorem outs1_5 (c : Dev nD) (t : Fin cfg1.N) :
    (outsAt1 V c t.val t.isLt).1 = k1_pay1 (k1_pay5 (blkX1 V c t)) (k1_pay8 (blkA1 V c t) (blkT1 V c t) (blkWt1 V c t)) (k1_pay9 (blkWs1 V c t)) := by
  have hN : t.val < 50 := lt_of_lt_of_eq t.isLt (show cfg1.N = 50 from N_1)
  by_cases h0 : t.val % 25 = 0
  · exact (caseA V c t h0 (by omega)).1
  · by_cases h1 : t.val % 25 = 24
    · exact (caseC V c t h0 h1).1
    · exact (caseB V c t h0 h1).1

theorem outs1_6 (c : Dev nD) (t : Fin cfg1.N) :
    (outsAt1 V c t.val t.isLt).2.1 = k1_pay4 (blkX1 V c t) := by
  have hN : t.val < 50 := lt_of_lt_of_eq t.isLt (show cfg1.N = 50 from N_1)
  by_cases h0 : t.val % 25 = 0
  · exact (caseA V c t h0 (by omega)).2.1
  · by_cases h1 : t.val % 25 = 24
    · exact (caseC V c t h0 h1).2.1
    · exact (caseB V c t h0 h1).2.1

theorem outs1_acc_first (c : Dev nD) (t : Fin cfg1.N) (h0 : t.val % 25 = 0) :
    (outsAt1 V c t.val t.isLt).2.2.2 = k1_pay7 (blkX1 V c t) (blkA1 V c t) (k1_pay3 (F := F)) :=
  (caseA V c t h0 (by omega)).2.2

theorem outs1_acc_next (c : Dev nD) (t : Fin cfg1.N) (h0 : ¬t.val % 25 = 0) :
    (outsAt1 V c t.val t.isLt).2.2.2 = k1_pay7 (blkX1 V c t) (blkA1 V c t) (outsAt1 V c (t.val - 1) (Nat.lt_of_le_of_lt (Nat.sub_le _ _) t.isLt)).2.2.2 := by
  by_cases h1 : t.val % 25 = 24
  · exact (caseC V c t h0 h1).2.2
  · exact (caseB V c t h0 h1).2.2

theorem outs1_7_last (c : Dev nD) (t : Fin cfg1.N) (h1 : t.val % 25 = 24) :
    (outsAt1 V c t.val t.isLt).2.2.1 = k1_pay2 ((outsAt1 V c t.val t.isLt).2.2.2) := by
  have h0 : ¬t.val % 25 = 0 := by omega
  rw [(caseC V c t h0 h1).2.2, outsAt1_C V c t h0 h1]; unfold ptC1 out1_C_7; dsimp only
  rw [View.read_writes_eq_canon _ _ _ (fun _ => cover1_C_7 ..)]
  unfold kernelRun1_C
  dsimp only
  sl_unfold_words
  rw [View.canon_unit_zero (S := S1x256x128) hz3_1]
  simp only [View.readAt_eq_ld, (hs1_0 t).read_unread, (hs1_1 t).read_unread, (hs1_2 t).read_unread, (hs1_3 t).read_unread, (hs1_4 t).read_unread, (Memref.isWhole_whole _ : scM1_0.IsWhole).read_unread, View.ld_unit_zero (S := S2000x256) hz2_1, View.ld_unit_zero (S := S2000x128) hz2_1, View.ld_unit_zero (S := S256x128) hz2_1, View.ld_unit_zero (S := S128x128) hz2_1, View.readCov_unit_zero (S := S256x128) _ hz2_1]

end Cert.KernelIdeal.Val.R1

end
-- ==== Proof.SpecRows.lean ====
import proofs.«424668_j14448269984047_2_alg».proof.Proof.Spec

noncomputable section

open scoped BigOperators

namespace Cert.Spec

open Idealize.ShloMosaic Idealize.ShloMosaic.ValueIdx

def SameRow {R R' C : Nat} (x : Mat R C) (x' : Mat R' C) (r : Fin R) (r' : Fin R') : Prop := ∀ k : Fin C, x (ix2 r k) = x' (ix2 r' k)

theorem normRows_row {R R' C : Nat} (x : Mat R C) (x' : Mat R' C) (r : Fin R) (r' : Fin R') (h : SameRow x x' r r') :
    SameRow (normRows x) (normRows x') r r' := by
  intro k
  have e : rowLen x r = rowLen x' r' := by
    unfold rowLen
    congr 2
    exact Finset.sum_congr rfl fun k _ => by rw [h k]
  show Ideal.div (x (ix2 r k)) (rowLen x r) = Ideal.div (x' (ix2 r' k)) (rowLen x' r')
  rw [h k, e]

theorem mm_row {R R' K C : Nat} (a : Mat R K) (a' : Mat R' K) (b : Mat K C) (r : Fin R) (r' : Fin R') (h : SameRow a a' r r') :
    SameRow (mm a b) (mm a' b) r r' := by
  intro q
  show ∑ k : Fin K, a (ix2 r k) * b (ix2 k q) = ∑ k : Fin K, a' (ix2 r' k) * b (ix2 k q)
  exact Finset.sum_congr rfl fun k _ => by rw [h k]

theorem update_row {R R' : Nat} (relu : Bool) (agg own : Mat R 128) (agg' own' : Mat R' 128) (Wa Wo : Mat 128 128) (r : Fin R) (r' : Fin R')
    (ha : SameRow agg agg' r r') (ho : SameRow own own' r r') :
    SameRow (update relu agg own Wa Wo) (update relu agg' own' Wa Wo) r r' :=
  normRows_row _ _ r r' fun k => by
    show (if relu then max (_ + _) 0 else _ + _) = (if relu then max (_ + _) 0 else _ + _)
    rw [mm_row agg agg' Wa r r' ha k, mm_row own own' Wo r r' ho k]

end Cert.Spec

end
-- ==== Proof.LibPlainDot.lean ====
import Idealize.ShloMosaic.Lib.StackMember

noncomputable section

open scoped BigOperators

namespace Cert.LibPlainDot

open Idealize.ShloMosaic Idealize.ShloMosaic.ValueIdx

theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) :=
  (congrFun (matmul_zero_eq_dotGeneral _ prec A B) _).trans (StackMember.dotGeneral_plain_apply prec A B r q)

end Cert.LibPlainDot

end
-- ==== Proof.LibDotTN.lean ====
import Idealize.ShloMosaic.PureOps.Ideal.Laws
import Idealize.ShloMosaic.Lib.ValueIdx

noncomputable section

open scoped BigOperators

namespace Cert.LibDotTN

open Idealize.ShloMosaic Idealize.ShloMosaic.ValueIdx

def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem matmul_tn_apply {φ₁ φ₂ : FTy} (K M N : Nat) (prec : Option ContractPrecision)
    (A : FVec Ideal ⟨2, ![K, M]⟩ φ₁) (B : FVec Ideal ⟨2, ![K, N]⟩ φ₂) (r : Fin M) (q : Fin N) :
    FloatOps.matmul (transposedLhs K M N) prec A B (constant ⟨2, ![M, N]⟩ .f32 0x00000000#32) (ix2 r q)
      = ∑ j : Fin K, A (ix2 j r) * B (ix2 j q) := by
  rw [Ideal.matmul_constant_zero_apply, ← Equiv.sum_comp (contrEquiv1 (transposedLhs K M N) K rfl rfl).symm]
  refine Finset.sum_congr rfl fun j _ => ?_
  have hj := contrEquiv1_symm_val (transposedLhs K M N) K rfl rfl j
  congr 2 <;> funext a <;> apply Fin.ext <;> match a with
    | ⟨0, _⟩ => first | rfl | exact Eq.trans rfl hj
    | ⟨1, _⟩ => first | rfl | exact Eq.trans rfl hj

end Cert.LibDotTN

end
-- ==== Proof.KI.PayLib.lean ====
import proofs.«424668_j14448269984047_2_alg».proof.Proof.Gen.KernelIdeal.Skeleton
import proofs.«424668_j14448269984047_2_alg».proof.Proof.Spec
import proofs.«424668_j14448269984047_2_alg».proof.Proof.LibPlainDot
import proofs.«424668_j14448269984047_2_alg».proof.Proof.LibDotTN
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Spec

theorem laneSum_apply {R C : Nat} (src : FVec Ideal ⟨2, ![R, C]⟩ .f32) (hr : (⟨2, ![R, C]⟩ : Shape).Reduces [1] ⟨1, ![R]⟩)
    (hφ : FKind.Formats .f32) (hacc : (0x00000000#32 : BitVec 32) = FKind.add.neutral .f32 hφ) (p : Fin R) :
    multiReduction (F := Ideal) .add [1] ⟨1, ![R]⟩ src 0x00000000#32 hr hφ hacc (ix1 p) = ∑ k : Fin C, src (ix2 p k) := by
  refine (Ideal.multiReduction_add_single src 0x00000000#32 hr hφ hacc (ix1 p)).trans ?_
  refine Finset.sum_congr rfl fun k _ => congrArg src ?_
  funext a
  apply Fin.ext
  match a with
  | ⟨0, _⟩ => rfl
  | ⟨1, _⟩ => rfl

theorem colCast_apply {α : Type} {R : Nat} (x : (⟨1, ![R]⟩ : Shape).Idx → α) (hs : (⟨1, ![R]⟩ : Shape).ShapeCasts ⟨2, ![R, 1]⟩)
    (p : Fin R) (z : Fin 1) : shapeCast ⟨2, ![R, 1]⟩ x hs (ix2 p z) = x (ix1 p) :=
  shapeCast_apply x hs _ _ (by
    have hz : z.val = 0 := by omega
    rw [Shape.rowMajor_val_two, Shape.rowMajor_val_one]
    show p.val = p.val * 1 + z.val
    rw [hz, Nat.mul_one, Nat.add_zero])

theorem colBroadcast_apply {α : Type} {R C : Nat} (x : (⟨2, ![R, 1]⟩ : Shape).Idx → α)
    (hb : (⟨2, ![R, 1]⟩ : Shape).Broadcasts ⟨2, ![R, C]⟩) (p : Fin R) (q : Fin C) :
    broadcastTo ⟨2, ![R, C]⟩ x hb (ix2 p q) = x (ix2 p (0 : Fin 1)) := by
  refine broadcastTo_apply x hb (ix2 p q) (ix2 p (0 : Fin 1)) fun ax => ?_
  match ax with
  | ⟨0, _⟩ =>
    show p.val = if R = 1 then 0 else p.val
    split
    · have := p.isLt; omega
    · rfl
  | ⟨1, _⟩ => rfl

theorem normChain_eq {R C : Nat} (v : FVec Ideal ⟨2, ![R, C]⟩ .f32)
    (hr : (⟨2, ![R, C]⟩ : Shape).Reduces [1] ⟨1, ![R]⟩) (hφ : FKind.Formats .f32)
    (hacc : (0x00000000#32 : BitVec 32) = FKind.add.neutral .f32 hφ)
    (hs : (⟨1, ![R]⟩ : Shape).ShapeCasts ⟨2, ![R, 1]⟩) (hb : (⟨2, ![R, 1]⟩ : Shape).Broadcasts ⟨2, ![R, C]⟩) :
    (divf v (broadcastTo ⟨2, ![R, C]⟩ (maximumf (broadcast ⟨2, ![R, 1]⟩ (Scalar.ofBits (F := Ideal) .f32 0x2B8CBCCC#32))
        (sqrt (shapeCast ⟨2, ![R, 1]⟩ (multiReduction (F := Ideal) .add [1] ⟨1, ![R]⟩ (mulf v v) 0x00000000#32 hr hφ hacc) hs))) hb)
      : (⟨2, ![R, C]⟩ : Shape).Idx → EReal) = Cert.Spec.normRows v := by
  funext i
  obtain ⟨p, q, rfl⟩ : ∃ (p : Fin R) (q : Fin C), i = ix2 p q := ⟨i 0, i 1, eq_ix2 i⟩
  show Ideal.div (v (ix2 p q)) _ = Ideal.div (v (ix2 p q)) (rowLen v p)
  refine congrArg (Ideal.div (v (ix2 p q))) ?_
  refine (colBroadcast_apply _ hb p q).trans ?_
  show max (Ideal.ofBits .f32 0x2B8CBCCC#32) (Ideal.sqrt _) = max eps (Ideal.sqrt _)
  refine congrArg (fun t => max (Ideal.ofBits .f32 0x2B8CBCCC#32) (Ideal.sqrt t)) ?_
  refine (colCast_apply _ hs p 0).trans ?_
  exact laneSum_apply (mulf v v) hr hφ hacc p

def normTile (v : FVec Ideal S2000x128 .f32) : FVec Ideal S2000x128 .f32 :=
  divf v (broadcastTo S2000x128 (maximumf (broadcast S2000x1 (Scalar.ofBits (F := Ideal) .f32 0x2B8CBCCC#32))
    (sqrt (shapeCast S2000x1 (multiReduction (F := Ideal) .add [1] S2000 (mulf v v) 0x00000000#32 reduces_S2000x128_S2000 (.inl rfl) rfl)
      shapeCasts_S2000_S2000x1))) broadcasts_S2000x1_S2000x128)

theorem normTile_eq (v : FVec Ideal S2000x128 .f32) : (normTile v : S2000x128.Idx → EReal) = Cert.Spec.normRows v :=
  normChain_eq v reduces_S2000x128_S2000 (.inl rfl) rfl shapeCasts_S2000_S2000x1 broadcasts_S2000x1_S2000x128

theorem mmTile_eq (A : FVec Ideal S2000x256 .bf16) (B : FVec Ideal S256x128 .bf16) :
    (matmul (F := Ideal) dot_S2000x256_S256x128_S2000x128_1_0_0_1_n_n none A B (constant (F := Ideal) S2000x128 .f32 0x00000000#32)
      : S2000x128.Idx → EReal) = Cert.Spec.mm A B := by
  funext i
  obtain ⟨p, q, rfl⟩ : ∃ (p : Fin 2000) (q : Fin 128), i = ix2 p q := ⟨i 0, i 1, eq_ix2 i⟩
  exact Cert.LibPlainDot.matmul_plain_apply 2000 256 128 none A B p q

theorem mmW_eq (X : FVec Ideal S2000x128 .bf16) (W : FVec Ideal S128x128 .bf16) :
    (matmul (F := Ideal) dot_S2000x128_S128x128_S2000x128_1_0_0_1_n_n none X W (constant (F := Ideal) S2000x128 .f32 0x00000000#32)
      : S2000x128.Idx → EReal) = Cert.Spec.mm X W := by
  funext i
  obtain ⟨p, q, rfl⟩ : ∃ (p : Fin 2000) (q : Fin 128), i = ix2 p q := ⟨i 0, i 1, eq_ix2 i⟩
  exact Cert.LibPlainDot.matmul_plain_apply 2000 128 128 none X W p q

theorem mmTN_apply (A : FVec Ideal S2000x256 .bf16) (X : FVec Ideal S2000x128 .bf16) (t : Fin 256) (k : Fin 128) :
    matmul (F := Ideal) dot_S2000x256_S2000x128_S256x128_0_0_1_1_n_n none A X (constant (F := Ideal) S256x128 .f32 0x00000000#32) (ix2 t k)
      = ∑ r : Fin 2000, A (ix2 r t) * X (ix2 r k) :=
  Cert.LibDotTN.matmul_tn_apply 2000 256 128 none A X t k

theorem zeroBlock_eq {s : Shape} (h : s.ShapeCasts s) :
    (shapeCast s (broadcast s (Scalar.ofBits (F := Ideal) .f32 0x00000000#32)) h : s.Idx → EReal) = fun _ => 0 := by
  rw [shapeCast_self]
  funext i
  exact Ideal.ofBits_zero_f32

theorem layerCast_eq (acc : FVec Ideal S256x128 .f32) (h : S256x128.ShapeCasts S1x256x128) :
    (shapeCast S1x256x128 acc h : S1x256x128.Idx → EReal) = fun i => acc (ix2 (i 1) (i 2)) := by
  funext i
  obtain ⟨u, t, k, rfl⟩ : ∃ (u : Fin 1) (t : Fin 256) (k : Fin 128), i = ix3 u t k := ⟨i 0, i 1, i 2, eq_ix3 i⟩
  exact shapeCast_ab_1ab_apply acc h u t k

-- Point n of the grid of 50 tiles is tile n % 25 of half n / 25.
def hOf (n : ℕ) : Fin 2 := ⟨n / 25 % 2, Nat.mod_lt _ (by decide)⟩
def jOf (n : ℕ) : Fin 25 := ⟨n % 25, Nat.mod_lt _ (by decide)⟩

theorem tileRow_at (n : ℕ) (hn : n < 50) (r : Fin 2000) : (tileRow (hOf n) (jOf n) r).val = n * 2000 + r.val := by
  show (n / 25 % 2 * 25 + n % 25) * 2000 + r.val = n * 2000 + r.val
  omega

-- Tile j of half h contributes to entry (i 0, i 1) the sum over its rows of A(row, i 0) * X(row, i 1).
def tileSum (A : Mat 100000 256) (X : Mat 100000 128) (h : Fin 2) (j : Fin 25) (i : S256x128.Idx) : EReal :=
  ∑ r : Fin 2000, A (ix2 (tileRow h j r) (i 0)) * X (ix2 (tileRow h j r) (i 1))

-- The contributions of tiles 0 … m of half h.
def partialSum (A : Mat 100000 256) (X : Mat 100000 128) (h : Fin 2) (m : ℕ) (i : S256x128.Idx) : EReal :=
  ∑ j ∈ Finset.range (m + 1), if hj : j < 25 then tileSum A X h ⟨j, hj⟩ i else 0

theorem partialSum_succ (A : Mat 100000 256) (X : Mat 100000 128) (h : Fin 2) (m : ℕ) (hm : m + 1 < 25) (i : S256x128.Idx) :
    partialSum A X h (m + 1) i = partialSum A X h m i + tileSum A X h ⟨m + 1, hm⟩ i :=
  (Finset.sum_range_succ _ _).trans (congrArg _ (dif_pos hm))

theorem partialSum_last (A : Mat 100000 256) (X : Mat 100000 128) (h : Fin 2) (p : Fin 256) (q : Fin 128) :
    partialSum A X h 24 (ix2 p q) = aggHalves A X (ix3 h p q) := by
  unfold partialSum
  rw [Finset.sum_range]
  exact Finset.sum_congr rfl fun j _ => dif_pos j.isLt

-- A family that restarts with one tile's contribution at the first tile of a half and gains one at every later tile is the partial sum.
theorem partialSum_fold {N : ℕ} (A : Mat 100000 256) (X : Mat 100000 128) (f : (n : ℕ) → n < N → S256x128.Idx → EReal)
    (h0 : ∀ n hn, n % 25 = 0 → ∀ i, f n hn i = 0 + tileSum A X (hOf n) (jOf n) i)
    (hs : ∀ n hn, ¬(n + 1) % 25 = 0 → ∀ i, f (n + 1) hn i = f n (Nat.lt_of_succ_lt hn) i + tileSum A X (hOf (n + 1)) (jOf (n + 1)) i) :
    ∀ n hn, f n hn = partialSum A X (hOf n) (n % 25) := by
  have hz : ∀ n, n % 25 = 0 → ∀ i, tileSum A X (hOf n) (jOf n) i = partialSum A X (hOf n) (n % 25) i := fun n h i => by
    rw [h, show jOf n = ⟨0, by decide⟩ from Fin.ext h]
    exact ((Finset.sum_range_one _).trans (dif_pos _)).symm
  intro n
  induction n with
  | zero =>
    intro hn
    funext i
    rw [h0 0 hn rfl, zero_add]
    exact hz 0 rfl i
  | succ n ih =>
    intro hn
    funext i
    by_cases h : (n + 1) % 25 = 0
    · rw [h0 _ hn h, zero_add]
      exact hz _ h i
    · rw [hs n hn h, ih, show hOf n = hOf (n + 1) from Fin.ext (by show n / 25 % 2 = (n + 1) / 25 % 2; omega),
        show (n + 1) % 25 = n % 25 + 1 by omega,
        show jOf (n + 1) = ⟨n % 25 + 1, by omega⟩ from Fin.ext (by show (n + 1) % 25 = n % 25 + 1; omega)]
      exact (partialSum_succ A X _ _ _ i).symm

-- Row i 0 lies in the block of 2000 rows of point i 0 / 2000.
theorem rowCover {N : ℕ} (hN : N = 50) (idx : Fin N → Fin 2 → ℕ) (hidx : ∀ t, idx t 0 = t.val ∧ idx t 1 = 0) (i : S100000x128.Idx) :
    ∃ t : Fin N, ∀ a : Fin 2, idx t a * S2000x128.size a ≤ (i a).val ∧ (i a).val < idx t a * S2000x128.size a + S2000x128.size a := by
  have h0 : (i 0).val < 100000 := (i 0).isLt
  have h1 : (i 1).val < 128 := (i 1).isLt
  have ht : (i 0).val / 2000 < N := by rw [hN]; omega
  obtain ⟨e0, e1⟩ := hidx ⟨_, ht⟩
  refine ⟨⟨_, ht⟩, fun a => ?_⟩
  match a with
  | ⟨0, _⟩ => show idx _ 0 * 2000 ≤ (i 0).val ∧ (i 0).val < idx _ 0 * 2000 + 2000; rw [e0]; show (i 0).val / 2000 * 2000 ≤ _ ∧ _ < (i 0).val / 2000 * 2000 + 2000; omega
  | ⟨1, _⟩ => show idx _ 1 * 128 ≤ (i 1).val ∧ (i 1).val < idx _ 1 * 128 + 128; rw [e1]; omega

-- Layer i 0 lies in the block of the last tile of half i 0.
theorem layerCover {N : ℕ} (hN : N = 50) (idx : Fin N → Fin 3 → ℕ) (hidx : ∀ t, idx t 0 = t.val / 25 ∧ idx t 1 = 0 ∧ idx t 2 = 0) (i : S2x256x128.Idx) :
    ∃ t : Fin N, t.val % 25 = 24 ∧ ∀ a : Fin 3, idx t a * S1x256x128.size a ≤ (i a).val ∧ (i a).val < idx t a * S1x256x128.size a + S1x256x128.size a := by
  have h0 : (i 0).val < 2 := (i 0).isLt
  have h1 : (i 1).val < 256 := (i 1).isLt
  have h2 : (i 2).val < 128 := (i 2).isLt
  have ht : (i 0).val * 25 + 24 < N := by rw [hN]; omega
  obtain ⟨e0, e1, e2⟩ := hidx ⟨_, ht⟩
  refine ⟨⟨_, ht⟩, by show ((i 0).val * 25 + 24) % 25 = 24; omega, fun a => ?_⟩
  match a with
  | ⟨0, _⟩ => show idx _ 0 * 1 ≤ (i 0).val ∧ (i 0).val < idx _ 0 * 1 + 1; rw [e0]; show ((i 0).val * 25 + 24) / 25 * 1 ≤ _ ∧ _ < ((i 0).val * 25 + 24) / 25 * 1 + 1; omega
  | ⟨1, _⟩ => show idx _ 1 * 256 ≤ (i 1).val ∧ (i 1).val < idx _ 1 * 256 + 256; rw [e1]; omega
  | ⟨2, _⟩ => show idx _ 2 * 128 ≤ (i 2).val ∧ (i 2).val < idx _ 2 * 128 + 128; rw [e2]; omega

end Cert.KernelIdeal.Pay

end
-- ==== Proof.KI.Pay1.lean ====
import proofs.«424668_j14448269984047_2_alg».proof.Proof.Gen.KernelIdeal.Skeleton
import proofs.«424668_j14448269984047_2_alg».proof.Proof.Spec
import proofs.«424668_j14448269984047_2_alg».proof.Proof.SpecRows
import proofs.«424668_j14448269984047_2_alg».proof.Proof.KI.PayLib
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Spec

theorem k1_pay3_eq : (k1_pay3 (F := Ideal) : S256x128.Idx → EReal) = fun _ => 0 :=
  zeroBlock_eq shapeCasts_S256x128_S256x128

theorem k1_pay4_eq (raw : Vec Ideal S2000x128 .f32) : (k1_pay4 (F := Ideal) raw : S2000x128.Idx → EReal) = Cert.Spec.normRows raw :=
  normTile_eq raw

theorem k1_pay5_eq (raw : Vec Ideal S2000x128 .f32) : (k1_pay5 (F := Ideal) raw : S2000x128.Idx → EReal) = Cert.Spec.normRows raw :=
  k1_pay4_eq raw

theorem k1_pay6_eq (A : Vec Ideal S2000x256 .bf16) : k1_pay6 (F := Ideal) A = A := shapeCast_self A _
theorem k1_pay9_eq (Ws : Vec Ideal S128x128 .bf16) : k1_pay9 (F := Ideal) Ws = Ws := shapeCast_self Ws _

theorem k1_pay7_eq (raw : Vec Ideal S2000x128 .f32) (A : Vec Ideal S2000x256 .bf16) (acc : Vec Ideal S256x128 .f32) :
    (k1_pay7 (F := Ideal) raw A acc : S256x128.Idx → EReal)
      = fun i => acc i + ∑ r : Fin 2000, A (ix2 r (i 0)) * Cert.Spec.normRows (R := 2000) (C := 128) raw (ix2 r (i 1)) := by
  refine (shapeCast_self _ _).trans ?_
  rw [k1_pay6_eq]
  funext i
  obtain ⟨t, k, rfl⟩ : ∃ (t : Fin 256) (k : Fin 128), i = ix2 t k := ⟨i 0, i 1, eq_ix2 i⟩
  refine congrArg (acc (ix2 t k) + ·) ((mmTN_apply A (k1_pay5 raw) t k).trans ?_)
  exact Finset.sum_congr rfl fun r _ => congrArg (A (ix2 r t) * ·) (congrFun (k1_pay5_eq raw) (ix2 r k))

theorem k1_pay2_eq (acc : Vec Ideal S256x128 .f32) :
    (k1_pay2 (F := Ideal) acc : S1x256x128.Idx → EReal) = fun i => acc (ix2 (i 1) (i 2)) :=
  layerCast_eq acc shapeCasts_S256x128_S1x256x128

theorem k1_pay8_eq (A : Vec Ideal S2000x256 .bf16) (xt : Vec Ideal S256x128 .f32) (Wt : Vec Ideal S128x128 .bf16) :
    (k1_pay8 (F := Ideal) A xt Wt : S2000x128.Idx → EReal) = Cert.Spec.mm (Cert.Spec.mm A xt) Wt := by
  show (matmul (F := Ideal) _ none _ _ _ : S2000x128.Idx → EReal) = _
  rw [k1_pay6_eq, shapeCast_self, shapeCast_self, mmTile_eq, mmW_eq]
  rfl

theorem k1_pay1_eq (raw : Vec Ideal S2000x128 .f32) (A : Vec Ideal S2000x256 .bf16) (xt : Vec Ideal S256x128 .f32)
    (Wt Ws : Vec Ideal S128x128 .bf16) :
    (k1_pay1 (F := Ideal) (k1_pay5 raw) (k1_pay8 A xt Wt) (k1_pay9 Ws) : S2000x128.Idx → EReal)
      = Cert.Spec.update true (Cert.Spec.mm A xt) (Cert.Spec.normRows raw) Wt Ws := by
  show (truncf .bf16 (normTile _) bitsLt_bf16_f32 : S2000x128.Idx → EReal) = _
  rw [k1_pay9_eq, mmW_eq]
  refine (normTile_eq _).trans ?_
  unfold Cert.Spec.update
  refine congrArg Cert.Spec.normRows ?_
  funext i
  show max (k1_pay8 (F := Ideal) A xt Wt i + Cert.Spec.mm (k1_pay5 (F := Ideal) raw) Ws i) (Ideal.ofBits .f32 0x00000000#32)
    = max (Cert.Spec.mm (Cert.Spec.mm A xt) Wt i + Cert.Spec.mm (Cert.Spec.normRows raw) Ws i) 0
  rw [Ideal.ofBits_zero_f32, congrFun (k1_pay8_eq A xt Wt) i, k1_pay5_eq raw]

end Cert.KernelIdeal.Pay

end
-- ==== Proof.KI.Val1.lean ====
import proofs.«424668_j14448269984047_2_alg».proof.Proof.KI.Val1Pieces
import proofs.«424668_j14448269984047_2_alg».proof.Proof.KI.Pay1
import proofs.«424668_j14448269984047_2_alg».proof.Proof.Spec
import proofs.«424668_j14448269984047_2_alg».proof.Proof.SpecRows
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Val

open Cert.KernelIdeal Cert.KernelIdeal.Gen Cert.KernelIdeal.Frm Idealize.ShloMosaic.ValueIdx
open Idealize.ShloMosaic Idealize.ShloMosaic.TcCoe Idealize.SL.Sem
open Idealize.ShloMosaic.Pipeline (Dat)
open Cert.Spec Cert.KernelIdeal.Pay

namespace R1

variable (V : (c : Dev nD) → (b : Ref sig .tc) → Buf (Elt Ideal) ((c : Thread nD τ).loc b))

abbrev arrA (c : Dev nD) : Mat 100000 256 := V c main_v13
abbrev arrX (c : Dev nD) : Mat 100000 128 := V c main_arg0
abbrev arrT (c : Dev nD) : Mat 256 128 := V c main_v0
abbrev arrWt (c : Dev nD) : Mat 128 128 := V c main_v19
abbrev arrWs (c : Dev nD) : Mat 128 128 := V c main_v22

theorem N1_lt (t : Fin cfg1.N) : t.val < 50 := lt_of_lt_of_eq t.isLt (show cfg1.N = 50 from N_1)

def rowAt (t : Fin cfg1.N) (r : Fin 2000) : Fin 100000 := ⟨t.val * 2000 + r.val, by have := N1_lt t; have := r.isLt; omega⟩

theorem rowAt_eq_tileRow (t : Fin cfg1.N) (r : Fin 2000) : rowAt t r = tileRow (hOf t.val) (jOf t.val) r :=
  Fin.ext (tileRow_at t.val (N1_lt t) r).symm

theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 3) = t.val / 25 ∧ win1_7.index t (1 : Fin 3) = 0 ∧ win1_7.index t (2 : Fin 3) = 0) :=
  (by decide +kernel : ∀ t : Fin grid1.N, _)

theorem blkA1_apply (c : Dev nD) (t : Fin cfg1.N) (r : Fin 2000) (q : Fin 256) :
    blkA1 V c t (ix2 r q) = arrA V c (ix2 (rowAt t r) q) := by
  obtain ⟨⟨e0, e1⟩, -⟩ := idx_facts1 t
  exact congrArg (V c main_v13) (Shape.idx_ext₂
    (show win1_0.index t (0 : Fin 2) * 2000 + 1 * r.val = t.val * 2000 + r.val by omega)
    (show win1_0.index t (1 : Fin 2) * 256 + 1 * q.val = q.val by omega))

theorem blkX1_apply (c : Dev nD) (t : Fin cfg1.N) (r : Fin 2000) (q : Fin 128) :
    blkX1 V c t (ix2 r q) = arrX V c (ix2 (rowAt t r) q) := by
  obtain ⟨-, ⟨e0, e1⟩, -⟩ := idx_facts1 t
  exact congrArg (V c main_arg0) (Shape.idx_ext₂
    (show win1_1.index t (0 : Fin 2) * 2000 + 1 * r.val = t.val * 2000 + r.val by omega)
    (show win1_1.index t (1 : Fin 2) * 128 + 1 * q.val = q.val by omega))

theorem blkT1_eq (c : Dev nD) (t : Fin cfg1.N) : blkT1 V c t = arrT V c := by
  obtain ⟨-, -, ⟨e0, e1⟩, -⟩ := idx_facts1 t
  exact funext fun y => congrArg (V c main_v0) (Shape.idx_ext₂
    (show win1_2.index t (0 : Fin 2) * 256 + 1 * (y 0).val = (y 0).val by omega)
    (show win1_2.index t (1 : Fin 2) * 128 + 1 * (y 1).val = (y 1).val by omega))

theorem blkWt1_eq (c : Dev nD) (t : Fin cfg1.N) : blkWt1 V c t = arrWt V c := by
  obtain ⟨-, -, -, ⟨e0, e1⟩, -⟩ := idx_facts1 t
  exact funext fun y => congrArg (V c main_v19) (Shape.idx_ext₂
    (show win1_3.index t (0 : Fin 2) * 128 + 1 * (y 0).val = (y 0).val by omega)
    (show win1_3.index t (1 : Fin 2) * 128 + 1 * (y 1).val = (y 1).val by omega))

theorem blkWs1_eq (c : Dev nD) (t : Fin cfg1.N) : blkWs1 V c t = arrWs V c := by
  obtain ⟨-, -, -, -, ⟨e0, e1⟩, -⟩ := idx_facts1 t
  exact funext fun y => congrArg (V c main_v22) (Shape.idx_ext₂
    (show win1_4.index t (0 : Fin 2) * 128 + 1 * (y 0).val = (y 0).val by omega)
    (show win1_4.index t (1 : Fin 2) * 128 + 1 * (y 1).val = (y 1).val by omega))

theorem sameRow_X (c : Dev nD) (t : Fin cfg1.N) (r : Fin 2000) : SameRow (blkX1 V c t) (arrX V c) r (rowAt t r) :=
  fun k => blkX1_apply V c t r k

theorem sameRow_A (c : Dev nD) (t : Fin cfg1.N) (r : Fin 2000) : SameRow (blkA1 V c t) (arrA V c) r (rowAt t r) :=
  fun k => blkA1_apply V c t r k

theorem tile_contrib (c : Dev nD) (t : Fin cfg1.N) (i : S256x128.Idx) :
    (∑ r : Fin 2000, blkA1 V c t (ix2 r (i 0)) * normRows (R := 2000) (C := 128) (blkX1 V c t) (ix2 r (i 1)))
      = tileSum (arrA V c) (normRows (arrX V c)) (hOf t.val) (jOf t.val) i := by
  unfold tileSum
  refine Finset.sum_congr rfl fun r _ => ?_
  rw [← rowAt_eq_tileRow t r, blkA1_apply V c t r (i 0), normRows_row _ _ r (rowAt t r) (sameRow_X V c t r) (i 1)]

-- The running sum after point n: the contributions of the tiles of n's half up to n's.
theorem acc_eq (c : Dev nD) : ∀ (n : ℕ) (hn : n < cfg1.N),
    (outsAt1 V c n hn).2.2.2 = partialSum (arrA V c) (normRows (arrX V c)) (hOf n) (n % 25) :=
  partialSum_fold _ _ (fun n hn => (outsAt1 V c n hn).2.2.2)
    (fun n hn h i => by rw [outs1_acc_first V c ⟨n, hn⟩ h, k1_pay7_eq, k1_pay3_eq]; show (0 : EReal) + _ = _; rw [tile_contrib V c ⟨n, hn⟩ i])
    (fun n hn h i => by rw [outs1_acc_next V c ⟨n + 1, hn⟩ h, k1_pay7_eq]; show (outsAt1 V c n _).2.2.2 i + _ = _; rw [tile_contrib V c ⟨n + 1, hn⟩ i])

theorem flushed1_6_eq (c : Dev nD) (t : Fin cfg1.N) :
    (dat1 V c).flushed 6 t = ((cfg1.win 6).blk t).view.read (Elt Ideal) (normRows (R := 100000) (C := 128) (arrX V c)) := by
  show (cfg1.win 6).cut (grid1.coords t) ((dat1 V c).after 6 t) = _
  rw [after1_6, outs1_6, k1_pay4_eq]
  obtain ⟨-, -, -, -, -, -, ⟨e0, e1⟩, -⟩ := idx_facts1 t
  funext j
  obtain ⟨r, k, rfl⟩ : ∃ (r : Fin 2000) (k : Fin 128), j = ix2 r k := ⟨j 0, j 1, eq_ix2 j⟩
  show normRows (R := 2000) (C := 128) (blkX1 V c t) (ix2 r k) = normRows (R := 100000) (C := 128) (arrX V c) (((cfg1.win 6).blk t).view.emb (ix2 r k))
  have hj : ((cfg1.win 6).blk t).view.emb (ix2 r k) = ix2 (rowAt t r) k := Shape.idx_ext₂
    (show win1_6.index t (0 : Fin 2) * 2000 + 1 * r.val = t.val * 2000 + r.val by omega)
    (show win1_6.index t (1 : Fin 2) * 128 + 1 * k.val = k.val by omega)
  rw [hj]
  exact normRows_row _ _ r (rowAt t r) (sameRow_X V c t r) k

theorem flushed1_5_eq (c : Dev nD) (t : Fin cfg1.N) :
    (dat1 V c).flushed 5 t = ((cfg1.win 5).blk t).view.read (Elt Ideal)
      (dataStep true (arrA V c) (normRows (arrX V c)) (arrT V c) (arrWt V c) (arrWs V c)) := by
  show (cfg1.win 5).cut (grid1.coords t) ((dat1 V c).after 5 t) = _
  rw [after1_5, outs1_5, k1_pay1_eq, blkT1_eq, blkWt1_eq, blkWs1_eq]
  obtain ⟨-, -, -, -, -, ⟨e0, e1⟩, -⟩ := idx_facts1 t
  funext j
  obtain ⟨r, k, rfl⟩ : ∃ (r : Fin 2000) (k : Fin 128), j = ix2 r k := ⟨j 0, j 1, eq_ix2 j⟩
  show update true (mm (blkA1 V c t) (arrT V c)) (normRows (blkX1 V c t)) (arrWt V c) (arrWs V c) (ix2 r k)
    = dataStep true (arrA V c) (normRows (arrX V c)) (arrT V c) (arrWt V c) (arrWs V c) (((cfg1.win 5).blk t).view.emb (ix2 r k))
  have hj : ((cfg1.win 5).blk t).view.emb (ix2 r k) = ix2 (rowAt t r) k := Shape.idx_ext₂
    (show win1_5.index t (0 : Fin 2) * 2000 + 1 * r.val = t.val * 2000 + r.val by omega)
    (show win1_5.index t (1 : Fin 2) * 128 + 1 * k.val = k.val by omega)
  rw [hj]
  unfold dataStep
  exact update_row true _ _ _ _ _ _ r (rowAt t r) (mm_row _ _ _ r (rowAt t r) (sameRow_A V c t r))
    (normRows_row _ _ r (rowAt t r) (sameRow_X V c t r)) k

theorem flushed1_7_eq (c : Dev nD) (t : Fin cfg1.N) (hf : (cfg1.win 7).flush t = true) :
    (dat1 V c).flushed 7 t = ((cfg1.win 7).blk t).view.read (Elt Ideal) (aggHalves (arrA V c) (normRows (arrX V c))) := by
  have h1 : t.val % 25 = 24 := (flush1_7 t).mp hf
  show (cfg1.win 7).cut (grid1.coords t) ((dat1 V c).after 7 t) = _
  rw [after1_7, outs1_7_last V c t h1, acc_eq, k1_pay2_eq]
  obtain ⟨-, -, -, -, -, -, -, ⟨e0, e1, e2⟩⟩ := idx_facts1 t
  funext j
  obtain ⟨u, p, q, rfl⟩ : ∃ (u : Fin 1) (p : Fin 256) (q : Fin 128), j = ix3 u p q := ⟨j 0, j 1, j 2, eq_ix3 j⟩
  show partialSum (arrA V c) (normRows (arrX V c)) (hOf t.val) (t.val % 25) (ix2 p q)
    = aggHalves (arrA V c) (normRows (arrX V c)) (((cfg1.win 7).blk t).view.emb (ix3 u p q))
  have hj : ((cfg1.win 7).blk t).view.emb (ix3 u p q) = ix3 (hOf t.val) p q := by
    funext a; apply Fin.ext
    have hu : u.val = 0 := by omega
    have := N1_lt t
    match a with
    | ⟨0, _⟩ => show win1_7.index t (0 : Fin 3) * 1 + 1 * u.val = t.val / 25 % 2; omega
    | ⟨1, _⟩ => show win1_7.index t (1 : Fin 3) * 256 + 1 * p.val = p.val; omega
    | ⟨2, _⟩ => show win1_7.index t (2 : Fin 3) * 128 + 1 * q.val = q.val; omega
  rw [hj, h1]
  exact partialSum_last _ _ _ p q

theorem cover1_5 (i : S100000x128.Idx) : ∃ t : Fin cfg1.N, (cfg1.win 5).flush t = true ∧ i ∈ ((cfg1.win 5).blk t).view.set := by
  obtain ⟨t, h⟩ := rowCover N_1 win1_5.index (fun t => (idx_facts1 t).2.2.2.2.2.1) i
  refine ⟨t, flush1_5 t, ?_⟩
  show i ∈ ((View.whole main_v26_0).slice (win1_5.rect t)).set
  rw [View.set_slice_whole, Rect.mem_set_unit]
  exact h

theorem cover1_6 (i : S100000x128.Idx) : ∃ t : Fin cfg1.N, (cfg1.win 6).flush t = true ∧ i ∈ ((cfg1.win 6).blk t).view.set := by
  obtain ⟨t, h⟩ := rowCover N_1 win1_6.index (fun t => (idx_facts1 t).2.2.2.2.2.2.1) i
  refine ⟨t, flush1_6 t, ?_⟩
  show i ∈ ((View.whole main_v26_1).slice (win1_6.rect t)).set
  rw [View.set_slice_whole, Rect.mem_set_unit]
  exact h

theorem cover1_7 (i : S2x256x128.Idx) : ∃ t : Fin cfg1.N, (cfg1.win 7).flush t = true ∧ i ∈ ((cfg1.win 7).blk t).view.set := by
  obtain ⟨t, h24, h⟩ := layerCover N_1 win1_7.index (fun t => (idx_facts1 t).2.2.2.2.2.2.2) i
  refine ⟨t, (flush1_7 t).mpr h24, ?_⟩
  show i ∈ ((View.whole main_v26_2).slice (win1_7.rect t)).set
  rw [View.set_slice_whole, Rect.mem_set_unit]
  exact h

end R1

variable (V : (c : Dev nD) → (b : Ref sig .tc) → Buf (Elt Ideal) ((c : Thread nD τ).loc b))

theorem final1_5 (c : Dev nD) : (dat1 (F := Ideal) V c).arrAt 5 cfg1.N = Cert.Spec.dataStep true (V c main_v13) (Cert.Spec.normRows (V c main_arg0)) (V c main_v0) (V c main_v19) (V c main_v22) :=
  (dat1 V c).arrAt_eq_of_cover 5 _ (fun t _ => R1.flushed1_5_eq V c t) R1.cover1_5

theorem final1_6 (c : Dev nD) : (dat1 (F := Ideal) V c).arrAt 6 cfg1.N = Cert.Spec.normRows (V c main_arg0) :=
  (dat1 V c).arrAt_eq_of_cover 6 _ (fun t _ => R1.flushed1_6_eq V c t) R1.cover1_6

theorem final1_7 (c : Dev nD) : (dat1 (F := Ideal) V c).arrAt 7 cfg1.N = Cert.Spec.aggHalves (V c main_v13) (Cert.Spec.normRows (V c main_arg0)) :=
  (dat1 V c).arrAt_eq_of_cover 7 _ (fun t hf => R1.flushed1_7_eq V c t hf) R1.cover1_7

end Cert.KernelIdeal.Val

end
-- ==== Proof.KI.Val2.lean ====
import proofs.«424668_j14448269984047_2_alg».proof.Proof.KI.Reg2
import proofs.«424668_j14448269984047_2_alg».proof.Proof.KI.Val0
import proofs.«424668_j14448269984047_2_alg».proof.Proof.LibPlainDot

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem
open Idealize.ShloMosaic.Pipeline (Dat)
open R0

namespace R2

theorem dot_apply {φ₁ φ₂ : FTy} (A : FVec Ideal S256x128 φ₁) (B : FVec Ideal S128x128 φ₂) (p : Fin 256) (s : Fin 128) :
    matmul dot_S256x128_S128x128_S256x128_1_0_0_1_n_n none A B (constant S256x128 .f32 0x00000000#32) (ix2 p s)
      = ∑ j : Fin 128, A (ix2 p j) * B (ix2 j s) :=
  Cert.LibPlainDot.matmul_plain_apply 256 128 128 none A B p s

def halves (v0 v2 : FVec Ideal S1x256x128 .f32) : Cert.Spec.Mat 256 128 :=
  fun i => v0 (ix3 (0 : Fin 1) (i 0) (i 1)) + v2 (ix3 (0 : Fin 1) (i 0) (i 1))

/-- The two layers added, times the first matrix, plus the task rows times the second, at an entry. -/
theorem lin_apply (v0 v2 : FVec Ideal S1x256x128 .f32) (v5 : FVec Ideal S256x128 .f32) (v9 v12 : FVec Ideal S128x128 .bf16) (p : Fin 256) (s : Fin 128) :
    matmul dot_S256x128_S128x128_S256x128_1_0_0_1_n_n none
        (truncf .bf16 (addf (shapeCast S256x128 v0 shapeCasts_S1x256x128_S256x128) (shapeCast S256x128 v2 shapeCasts_S1x256x128_S256x128)) bitsLt_bf16_f32)
        (shapeCast S128x128 v9 shapeCasts_S128x128_S128x128) (constant S256x128 .f32 0x00000000#32) (ix2 p s)
      + matmul dot_S256x128_S128x128_S256x128_1_0_0_1_n_n none (truncf .bf16 (shapeCast S256x128 v5 shapeCasts_S256x128_S256x128) bitsLt_bf16_f32)
        (shapeCast S128x128 v12 shapeCasts_S128x128_S128x128) (constant S256x128 .f32 0x00000000#32) (ix2 p s)
      = Cert.Spec.mm (halves v0 v2) v9 (ix2 p s) + Cert.Spec.mm v5 v12 (ix2 p s) := by
  rw [dot_apply, dot_apply]
  refine congrArg₂ (· + ·) (Finset.sum_congr rfl fun j _ => ?_) (Finset.sum_congr rfl fun j _ => ?_)
  · show (shapeCast S256x128 v0 shapeCasts_S1x256x128_S256x128 (ix2 p j) + shapeCast S256x128 v2 shapeCasts_S1x256x128_S256x128 (ix2 p j))
        * shapeCast S128x128 v9 shapeCasts_S128x128_S128x128 (ix2 j s) = (v0 (ix3 (0 : Fin 1) p j) + v2 (ix3 (0 : Fin 1) p j)) * v9 (ix2 j s)
    rw [shapeCast_1ab_ab_apply, shapeCast_1ab_ab_apply, shapeCast_self]
  · show shapeCast S256x128 v5 shapeCasts_S256x128_S256x128 (ix2 p j) * shapeCast S128x128 v12 shapeCasts_S128x128_S128x128 (ix2 j s)
        = v5 (ix2 p j) * v12 (ix2 j s)
    rw [shapeCast_self, shapeCast_self]

theorem pay2_apply (v0 v2 : FVec Ideal S1x256x128 .f32) (v5 : FVec Ideal S256x128 .f32) (v9 v12 : FVec Ideal S128x128 .bf16) (r : Fin 256) (q : Fin 128) :
    k2_pay1 (F := Ideal) v0 v2 v5 v9 v12 (ix2 r q) = Cert.Spec.update true (halves v0 v2) v5 v9 v12 (ix2 r q) :=
  (norm_tail_apply _ r q).trans (congrArg (fun Z : Cert.Spec.Mat 256 128 => Cert.Spec.normRows Z (ix2 r q)) (funext fun i => by
    rw [eq_ix2 i]; exact congrArg₂ max (lin_apply ..) Ideal.ofBits_zero_f32))

theorem halves_ld (X0 : FVec Ideal S2x256x128 .f32) :
    halves (View.ld (Val := Elt Ideal) (e' := .f32) X0 r2_a) (View.ld (Val := Elt Ideal) (e' := .f32) X0 r2_b) = Cert.Spec.addHalves X0 := by
  funext i
  show X0 (r2_a.idx (ix3 (0 : Fin 1) (i 0) (i 1))) + X0 (r2_b.idx (ix3 (0 : Fin 1) (i 0) (i 1))) = X0 (ix3 0 (i 0) (i 1)) + X0 (ix3 1 (i 0) (i 1))
  congr 2
  all_goals
    funext a; apply Fin.ext
    match a with
    | ⟨0, _⟩ => rfl
    | ⟨1, _⟩ => show 0 + 1 * (i 0).val = (i 0).val; omega
    | ⟨2, _⟩ => show 0 + 1 * (i 1).val = (i 1).val; omega

/-- A function that is the update at every entry, on arrays equal to the given ones, is their task step. -/
theorem pay_eq (b : Bool) (k : FVec Ideal S1x256x128 .f32 → FVec Ideal S1x256x128 .f32 → FVec Ideal S256x128 .f32 → FVec Ideal S128x128 .bf16 → FVec Ideal S128x128 .bf16 → FVec Ideal S256x128 .f32)
    (hk : ∀ v0 v2 v5 v9 v12 r q, k v0 v2 v5 v9 v12 (ix2 r q) = Cert.Spec.update b (halves v0 v2) v5 v9 v12 (ix2 r q))
    {B0 X0 : FVec Ideal S2x256x128 .f32} {B1 X1 : FVec Ideal S256x128 .f32} {B2 X2 B3 X3 : FVec Ideal S128x128 .bf16}
    (h0 : B0 = X0) (h1 : B1 = X1) (h2 : B2 = X2) (h3 : B3 = X3) :
    k (View.ld (Val := Elt Ideal) (e' := .f32) B0 r2_a) (View.ld (Val := Elt Ideal) (e' := .f32) B0 r2_b) B1 B2 B3 = Cert.Spec.taskStep b X0 X1 X2 X3 := by
  subst h0 h1 h2 h3
  funext j
  obtain ⟨r, q, rfl⟩ : ∃ (r : Fin 256) (q : Fin 128), j = ix2 r q := ⟨j 0, j 1, eq_ix2 j⟩
  rw [hk]
  exact congrArg (fun A : Cert.Spec.Mat 256 128 => Cert.Spec.update b A B1 B2 B3 (ix2 r q)) (halves_ld B0)

theorem idx2 : ∀ t : Fin cfg2.N, (∀ a, win2_0.index t a = 0) ∧ (∀ a, win2_1.index t a = 0) ∧ (∀ a, win2_2.index t a = 0)
    ∧ (∀ a, win2_3.index t a = 0) ∧ ∀ a, win2_4.index t a = 0 :=
  (by decide +kernel : ∀ t : Fin grid2.N, _)

end R2

open R2

variable (V : (c : Dev nD) → (b : Ref sig .tc) → Buf (Elt Ideal) ((c : Thread nD τ).loc b))

theorem final2 (c : Dev nD) : (dat2 (F := Ideal) V c).arrAt 4 cfg2.N
    = Cert.Spec.taskStep true (V c main_v26_2) (V c main_v0) (V c main_v16) (V c main_v25) :=
  (dat2 V c).arrAt_eq_of_cover 4 _ (fun t _ => by
    obtain ⟨e0, e1, e2, e3, e4⟩ := idx2 t
    refine Eq.trans ?_ (read_zero main_v27 e4 _ _).symm
    show (cfg2.win 4).cut (grid2.coords t) ((dat2 V c).after 4 t) = _
    rw [after2_4]
    unfold out2_4
    rw [View.canon_unit_zero hz2]
    simp only [View.ld_unit_zero (S := S256x128) hz2, View.ld_unit_zero (S := S128x128) hz2]
    exact pay_eq true (k2_pay1 (F := Ideal)) pay2_apply (read_zero main_v26_2 e0 _ _) (read_zero main_v0 e1 _ _) (read_zero main_v16 e2 _ _) (read_zero main_v25 e3 _ _))
    fun i => ⟨⟨0, by decide⟩, flush2_4 _, mem_zero main_v27 (idx2 _).2.2.2.2 _ i⟩

end Cert.KernelIdeal.Val

end
-- ==== Proof.KI.Pay3.lean ====
import proofs.«424668_j14448269984047_2_alg».proof.Proof.Gen.KernelIdeal.Skeleton
import proofs.«424668_j14448269984047_2_alg».proof.Proof.Spec
import proofs.«424668_j14448269984047_2_alg».proof.Proof.SpecRows
import proofs.«424668_j14448269984047_2_alg».proof.Proof.KI.PayLib
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Spec

theorem k3_pay2_eq : (k3_pay2 (F := Ideal) : S256x128.Idx → EReal) = fun _ => 0 :=
  zeroBlock_eq shapeCasts_S256x128_S256x128

theorem k3_pay3_eq (xd : Vec Ideal S2000x128 .bf16) : k3_pay3 (F := Ideal) xd = xd := shapeCast_self xd _
theorem k3_pay4_eq (A : Vec Ideal S2000x256 .bf16) : k3_pay4 (F := Ideal) A = A := shapeCast_self A _

theorem k3_pay5_eq (xd : Vec Ideal S2000x128 .bf16) (A : Vec Ideal S2000x256 .bf16) (acc : Vec Ideal S256x128 .f32) :
    (k3_pay5 (F := Ideal) xd A acc : S256x128.Idx → EReal) = fun i => acc i + ∑ r : Fin 2000, A (ix2 r (i 0)) * xd (ix2 r (i 1)) := by
  refine (shapeCast_self _ _).trans ?_
  rw [k3_pay3_eq, k3_pay4_eq]
  funext i
  obtain ⟨t, k, rfl⟩ : ∃ (t : Fin 256) (k : Fin 128), i = ix2 t k := ⟨i 0, i 1, eq_ix2 i⟩
  exact congrArg (acc (ix2 t k) + ·) (mmTN_apply A xd t k)

theorem k3_pay1_eq (acc : Vec Ideal S256x128 .f32) :
    (k3_pay1 (F := Ideal) acc : S1x256x128.Idx → EReal) = fun i => acc (ix2 (i 1) (i 2)) :=
  layerCast_eq acc shapeCasts_S256x128_S1x256x128

theorem k3_pay6_eq (xd : Vec Ideal S2000x128 .bf16) (A : Vec Ideal S2000x256 .bf16) (xt : Vec Ideal S256x128 .f32)
    (Wt Ws : Vec Ideal S128x128 .bf16) :
    (k3_pay6 (F := Ideal) xd A xt Wt Ws : S2000x128.Idx → EReal) = Cert.Spec.update false (Cert.Spec.mm A xt) xd Wt Ws := by
  show (truncf .bf16 (normTile _) bitsLt_bf16_f32 : S2000x128.Idx → EReal) = _
  rw [k3_pay3_eq, k3_pay4_eq, shapeCast_self, shapeCast_self, shapeCast_self, normTile_eq, mmTile_eq, mmW_eq, mmW_eq]
  rfl

end Cert.KernelIdeal.Pay

end
-- ==== Proof.KI.Val3.lean ====
import proofs.«424668_j14448269984047_2_alg».proof.Proof.KI.Reg3
import proofs.«424668_j14448269984047_2_alg».proof.Proof.KI.Pay3
import proofs.«424668_j14448269984047_2_alg».proof.Proof.Spec
import proofs.«424668_j14448269984047_2_alg».proof.Proof.SpecRows
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Val

open Cert.KernelIdeal Cert.KernelIdeal.Gen Cert.KernelIdeal.Frm Idealize.ShloMosaic.ValueIdx
open Idealize.ShloMosaic Idealize.ShloMosaic.TcCoe Idealize.ShloMosaic.Tactic Idealize.SL.Sem
open Idealize.ShloMosaic.Pipeline (Dat)
open Cert.KernelIdeal.Pay

namespace R3

theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable {F : FTy → Type} [FloatOps F] {c : Dev nD} {i : grid3.Coords}
  {arg2 : Memref sig .tc .vmem S2000x256 .bf16} {harg2 : arg2.IsWhole} {arg3 : Memref sig .tc .vmem S2000x128 .bf16} {harg3 : arg3.IsWhole}
  {arg4 : Memref sig .tc .vmem S256x128 .f32} {harg4 : arg4.IsWhole} {arg5 : Memref sig .tc .vmem S128x128 .bf16} {harg5 : arg5.IsWhole}
  {arg6 : Memref sig .tc .vmem S128x128 .bf16} {harg6 : arg6.IsWhole} {arg7 : Memref sig .tc .vmem S2000x128 .bf16} {harg7 : arg7.IsWhole}
  {arg8 : Memref sig .tc .vmem S1x256x128 .f32} {harg8 : arg8.IsWhole} {arg9 : Memref sig .tc .vmem S256x128 .f32} {harg9 : arg9.IsWhole}
  {x0 : Vec F S2000x256 .bf16} {x1 : Vec F S2000x128 .bf16} {x2 : Vec F S256x128 .f32} {x3 x4 : Vec F S128x128 .bf16} {xs0 : Vec F S256x128 .f32}

theorem ldW {κ : Kind} {sp : Space} {S : Shape} {e : EltTy} {m : Memref sig κ sp S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  rw [View.readAt_eq_ld, h.read_unread, View.ld_unit_zero ho]

theorem out5_A {hc0 : cond3_0 i} {hc1 : ¬cond3_1 i} :
    out3_A_5 c i arg2 harg2 arg3 harg3 arg4 harg4 arg5 harg5 arg6 harg6 arg7 harg7 arg8 harg8 arg9 harg9 hc0 hc1 x0 x1 x2 x3 x4 = k3_pay6 x1 x0 x2 x3 x4 := by
  unfold out3_A_5
  rw [View.read_writes_eq_canon _ _ _ (fun _ => cover3_A_5 ..)]
  unfold kernelRun3_A
  dsimp only
  try sl_unfold_words
  rw [View.canon_unit_zero hz2]
  simp only [ldW harg2 _ hz2, ldW harg3 _ hz2, ldW harg4 _ hz2, ldW harg5 _ hz2, ldW harg6 _ hz2, ldW harg9 _ hz2]

theorem out5_B {hc0 : ¬cond3_0 i} {hc1 : ¬cond3_1 i} :
    out3_B_5 c i arg2 harg2 arg3 harg3 arg4 harg4 arg5 harg5 arg6 harg6 arg7 harg7 arg8 harg8 arg9 harg9 hc0 hc1 x0 x1 x2 x3 x4 xs0 = k3_pay6 x1 x0 x2 x3 x4 := by
  unfold out3_B_5
  rw [View.read_writes_eq_canon _ _ _ (fun _ => cover3_B_5 ..)]
  unfold kernelRun3_B
  dsimp only
  try sl_unfold_words
  rw [View.canon_unit_zero hz2]
  simp only [ldW harg2 _ hz2, ldW harg3 _ hz2, ldW harg4 _ hz2, ldW harg5 _ hz2, ldW harg6 _ hz2, ldW harg9 _ hz2]

theorem out5_C {hc0 : ¬cond3_0 i} {hc1 : cond3_1 i} :
    out3_C_5 c i arg2 harg2 arg3 harg3 arg4 harg4 arg5 harg5 arg6 harg6 arg7 harg7 arg8 harg8 arg9 harg9 hc0 hc1 x0 x1 x2 x3 x4 xs0 = k3_pay6 x1 x0 x2 x3 x4 := by
  unfold out3_C_5
  rw [View.read_writes_eq_canon _ _ _ (fun _ => cover3_C_5 ..)]
  unfold kernelRun3_C
  dsimp only
  try sl_unfold_words
  rw [View.canon_unit_zero hz2]
  simp only [ldW harg2 _ hz2, ldW harg3 _ hz2, ldW harg4 _ hz2, ldW harg5 _ hz2, ldW harg6 _ hz2, ldW harg9 _ hz2]

theorem acc_A {hc0 : cond3_0 i} {hc1 : ¬cond3_1 i} :
    sout3_A_0 c i arg2 harg2 arg3 harg3 arg4 harg4 arg5 harg5 arg6 harg6 arg7 harg7 arg8 harg8 arg9 harg9 hc0 hc1 x0 x1 x2 x3 x4 = k3_pay5 x1 x0 (k3_pay2 (F := F)) := by
  unfold sout3_A_0
  rw [View.read_writes_eq_canon _ _ _ (fun _ => scover3_A_0 ..)]
  unfold kernelRun3_A
  dsimp only
  try sl_unfold_words
  rw [View.canon_cons_unit_zero (S := S256x128) hz2, View.readCov_unit_zero (S := S256x128) _ hz2]
  simp only [ldW harg2 _ hz2, ldW harg3 _ hz2, ldW harg4 _ hz2, ldW harg5 _ hz2, ldW harg6 _ hz2, ldW harg9 _ hz2]

theorem acc_B {hc0 : ¬cond3_0 i} {hc1 : ¬cond3_1 i} :
    sout3_B_0 c i arg2 harg2 arg3 harg3 arg4 harg4 arg5 harg5 arg6 harg6 arg7 harg7 arg8 harg8 arg9 harg9 hc0 hc1 x0 x1 x2 x3 x4 xs0 = k3_pay5 x1 x0 xs0 := by
  unfold sout3_B_0
  rw [View.read_writes_eq_canon _ _ _ (fun _ => scover3_B_0 ..)]
  unfold kernelRun3_B
  dsimp only
  try sl_unfold_words
  rw [View.canon_unit_zero hz2]
  simp only [ldW harg2 _ hz2, ldW harg3 _ hz2, ldW harg4 _ hz2, ldW harg5 _ hz2, ldW harg6 _ hz2, ldW harg9 _ hz2]

theorem acc_C {hc0 : ¬cond3_0 i} {hc1 : cond3_1 i} :
    sout3_C_0 c i arg2 harg2 arg3 harg3 arg4 harg4 arg5 harg5 arg6 harg6 arg7 harg7 arg8 harg8 arg9 harg9 hc0 hc1 x0 x1 x2 x3 x4 xs0 = k3_pay5 x1 x0 xs0 := by
  unfold sout3_C_0
  rw [View.read_writes_eq_canon _ _ _ (fun _ => scover3_C_0 ..)]
  unfold kernelRun3_C
  dsimp only
  try sl_unfold_words
  rw [View.canon_unit_zero hz2]
  simp only [ldW harg2 _ hz2, ldW harg3 _ hz2, ldW harg4 _ hz2, ldW harg5 _ hz2, ldW harg6 _ hz2, ldW harg9 _ hz2]

theorem out6_C {hc0 : ¬cond3_0 i} {hc1 : cond3_1 i} :
    out3_C_6 c i arg2 harg2 arg3 harg3 arg4 harg4 arg5 harg5 arg6 harg6 arg7 harg7 arg8 harg8 arg9 harg9 hc0 hc1 x0 x1 x2 x3 x4 xs0 = k3_pay1 (k3_pay5 x1 x0 xs0) := by
  unfold out3_C_6
  rw [View.read_writes_eq_canon _ _ _ (fun _ => cover3_C_6 ..)]
  unfold kernelRun3_C
  dsimp only
  try sl_unfold_words
  rw [View.canon_unit_zero hz3, View.readCov_unit_zero (S := S256x128) _ hz2]
  simp only [ldW harg2 _ hz2, ldW harg3 _ hz2, ldW harg4 _ hz2, ldW harg5 _ hz2, ldW harg6 _ hz2, ldW harg9 _ hz2]

end Pieces

section Values

variable (V : (c : Dev nD) → (b : Ref sig .tc) → Buf (Elt Ideal) ((c : Thread nD τ).loc b))

abbrev wA (c : Dev nD) : Cert.Spec.Mat 100000 256 := V c main_v13
abbrev xd (c : Dev nD) : Cert.Spec.Mat 100000 128 := V c main_v26_0
abbrev xt (c : Dev nD) : Cert.Spec.Mat 256 128 := V c main_v27
abbrev mWt (c : Dev nD) : Cert.Spec.Mat 128 128 := V c main_v33
abbrev mWs (c : Dev nD) : Cert.Spec.Mat 128 128 := V c main_v36

abbrev blkA (c : Dev nD) (t : Fin cfg3.N) : Vec Ideal S2000x256 .bf16 := iblk3 V c 0 t
abbrev blkX (c : Dev nD) (t : Fin cfg3.N) : Vec Ideal S2000x128 .bf16 := iblk3 V c 1 t
abbrev blkT (c : Dev nD) (t : Fin cfg3.N) : Vec Ideal S256x128 .f32 := iblk3 V c 2 t
abbrev blkWt (c : Dev nD) (t : Fin cfg3.N) : Vec Ideal S128x128 .bf16 := iblk3 V c 3 t
abbrev blkWs (c : Dev nD) (t : Fin cfg3.N) : Vec Ideal S128x128 .bf16 := iblk3 V c 4 t

theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0)
    ∧ (win3_6.index t (0 : Fin 3) = t.val / 25 ∧ win3_6.index t (1 : Fin 3) = 0 ∧ win3_6.index t (2 : Fin 3) = 0) :=
  (by decide +kernel : ∀ t : Fin grid3.N, _)

theorem N_lt (t : Fin cfg3.N) : t.val < 50 := lt_of_lt_of_eq t.isLt (show cfg3.N = 50 from N_3)

theorem blkA_apply (c : Dev nD) (t : Fin cfg3.N) (r : Fin 2000) (p : Fin 256) (R : Fin 100000) (hR : R.val = t.val * 2000 + r.val) :
    blkA V c t (ix2 r p) = wA V c (ix2 R p) := by
  obtain ⟨⟨e0, e1⟩, -⟩ := idx_facts t
  exact congrArg (V c main_v13) (Shape.idx_ext₂
    (show win3_0.index t (0 : Fin 2) * 2000 + 1 * r.val = R.val by omega)
    (show win3_0.index t (1 : Fin 2) * 256 + 1 * p.val = p.val by omega))

theorem blkX_apply (c : Dev nD) (t : Fin cfg3.N) (r : Fin 2000) (k : Fin 128) (R : Fin 100000) (hR : R.val = t.val * 2000 + r.val) :
    blkX V c t (ix2 r k) = xd V c (ix2 R k) := by
  obtain ⟨-, ⟨e0, e1⟩, -⟩ := idx_facts t
  exact congrArg (V c main_v26_0) (Shape.idx_ext₂
    (show win3_1.index t (0 : Fin 2) * 2000 + 1 * r.val = R.val by omega)
    (show win3_1.index t (1 : Fin 2) * 128 + 1 * k.val = k.val by omega))

theorem blkT_eq (c : Dev nD) (t : Fin cfg3.N) : blkT V c t = xt V c := by
  obtain ⟨-, -, ⟨e0, e1⟩, -⟩ := idx_facts t
  exact funext fun j => congrArg (V c main_v27) (Shape.idx_ext₂
    (show win3_2.index t (0 : Fin 2) * 256 + 1 * (j 0).val = (j 0).val by omega)
    (show win3_2.index t (1 : Fin 2) * 128 + 1 * (j 1).val = (j 1).val by omega))

theorem blkWt_eq (c : Dev nD) (t : Fin cfg3.N) : blkWt V c t = mWt V c := by
  obtain ⟨-, -, -, ⟨e0, e1⟩, -⟩ := idx_facts t
  exact funext fun j => congrArg (V c main_v33) (Shape.idx_ext₂
    (show win3_3.index t (0 : Fin 2) * 128 + 1 * (j 0).val = (j 0).val by omega)
    (show win3_3.index t (1 : Fin 2) * 128 + 1 * (j 1).val = (j 1).val by omega))

theorem blkWs_eq (c : Dev nD) (t : Fin cfg3.N) : blkWs V c t = mWs V c := by
  obtain ⟨-, -, -, -, ⟨e0, e1⟩, -⟩ := idx_facts t
  exact funext fun j => congrArg (V c main_v36) (Shape.idx_ext₂
    (show win3_4.index t (0 : Fin 2) * 128 + 1 * (j 0).val = (j 0).val by omega)
    (show win3_4.index t (1 : Fin 2) * 128 + 1 * (j 1).val = (j 1).val by omega))

theorem outs_fst (c : Dev nD) (t : Fin cfg3.N) :
    (outsAt3 V c t.val t.isLt).1 = k3_pay6 (F := Ideal) (blkX V c t) (blkA V c t) (blkT V c t) (blkWt V c t) (blkWs V c t) := by
  by_cases h0 : t.val % 25 = 0
  · have h1 : ¬t.val % 25 = 24 := by omega
    rw [outsAt3_A V c t h0 h1]; dsimp only
    exact out5_A
  · by_cases h1 : t.val % 25 = 24
    · rw [outsAt3_C V c t h0 h1]; dsimp only
      exact out5_C
    · rw [outsAt3_B V c t h0 h1]; dsimp only
      exact out5_B

abbrev G5 (c : Dev nD) : Cert.Spec.Mat 100000 128 :=
  Cert.Spec.dataStep false (wA V c) (xd V c) (xt V c) (mWt V c) (mWs V c)

theorem flushed5_eq (c : Dev nD) (t : Fin cfg3.N) :
    (dat3 V c).flushed 5 t = ((cfg3.win 5).blk t).view.read (Elt Ideal) (G5 V c) := by
  show (cfg3.win 5).cut (grid3.coords t) ((dat3 V c).after 5 t) = _
  rw [after3_5, outs_fst, Pay.k3_pay6_eq, blkT_eq, blkWt_eq, blkWs_eq]
  obtain ⟨-, -, -, -, -, ⟨e0, e1⟩, -⟩ := idx_facts t
  have hN := N_lt t
  funext j
  obtain ⟨r, k, rfl⟩ : ∃ (r : Fin 2000) (k : Fin 128), j = ix2 r k := ⟨j 0, j 1, eq_ix2 j⟩
  rw [View.read_apply]
  have hemb : ((cfg3.win 5).blk t).view.emb (ix2 r k) = ix2 (⟨t.val * 2000 + r.val, by have := r.isLt; omega⟩ : Fin 100000) k := Shape.idx_ext₂
    (show win3_5.index t (0 : Fin 2) * 2000 + 1 * r.val = t.val * 2000 + r.val by omega)
    (show win3_5.index t (1 : Fin 2) * 128 + 1 * k.val = k.val by omega)
  rw [hemb]
  exact Cert.Spec.update_row false _ _ _ _ _ _ r ⟨t.val * 2000 + r.val, by have := r.isLt; omega⟩
    (Cert.Spec.mm_row _ _ _ r _ fun p => blkA_apply V c t r p _ rfl) (fun q => blkX_apply V c t r q _ rfl) k

theorem mem_blk5 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v40_0).slice (win3_5.rect t)).set ↔ _
  rw [View.set_slice_whole, Rect.mem_set_unit]
  exact Iff.rfl

theorem cover5 (i : S100000x128.Idx) : ∃ t : Fin cfg3.N, (cfg3.win 5).flush t = true ∧ i ∈ ((cfg3.win 5).blk t).view.set := by
  obtain ⟨t, h⟩ := rowCover N_3 win3_5.index (fun t => (idx_facts t).2.2.2.2.2.1) i
  exact ⟨t, flush3_5 t, (mem_blk5 t i).mpr h⟩

theorem tile_at (c : Dev nD) (t : Fin cfg3.N) (i : S256x128.Idx) :
    (∑ r : Fin 2000, blkA V c t (ix2 r (i 0)) * blkX V c t (ix2 r (i 1))) = tileSum (wA V c) (xd V c) (hOf t.val) (jOf t.val) i :=
  Finset.sum_congr rfl fun r _ => by
    rw [blkA_apply V c t r (i 0) _ (tileRow_at t.val (N_lt t) r), blkX_apply V c t r (i 1) _ (tileRow_at t.val (N_lt t) r)]

-- The running sum after point n: the contributions of the tiles of n's half up to n's.
theorem acc_inv (c : Dev nD) : ∀ (n : ℕ) (hn : n < cfg3.N), (outsAt3 V c n hn).2.2 = partialSum (wA V c) (xd V c) (hOf n) (n % 25) :=
  partialSum_fold _ _ (fun n hn => (outsAt3 V c n hn).2.2)
    (fun n hn h i => by
      have h1 : ¬n % 25 = 24 := by omega
      rw [outsAt3_A V c ⟨n, hn⟩ h h1]; dsimp only
      rw [acc_A, k3_pay5_eq, k3_pay2_eq]; show (0 : EReal) + _ = _; rw [tile_at V c ⟨n, hn⟩ i])
    (fun n hn h i => by
      have key : ∀ xs : Vec Ideal S256x128 .f32, k3_pay5 (F := Ideal) (blkX V c ⟨n + 1, hn⟩) (blkA V c ⟨n + 1, hn⟩) xs i
          = xs i + tileSum (wA V c) (xd V c) (hOf (n + 1)) (jOf (n + 1)) i := fun xs => by
        rw [k3_pay5_eq]; show xs i + _ = _; rw [tile_at V c ⟨n + 1, hn⟩ i]
      by_cases h1 : (n + 1) % 25 = 24
      · rw [outsAt3_C V c ⟨n + 1, hn⟩ h h1]; dsimp only
        rw [acc_C]; exact key _
      · rw [outsAt3_B V c ⟨n + 1, hn⟩ h h1]; dsimp only
        rw [acc_B]; exact key _)

theorem outs_snd_C (c : Dev nD) (t : Fin cfg3.N) (h1 : t.val % 25 = 24) :
    (outsAt3 V c t.val t.isLt).2.1 = k3_pay1 (F := Ideal) ((outsAt3 V c t.val t.isLt).2.2) := by
  have h0 : ¬t.val % 25 = 0 := by omega
  rw [outsAt3_C V c t h0 h1]; dsimp only
  rw [out6_C, acc_C]

abbrev G6 (c : Dev nD) : Cert.Spec.Ten 2 256 128 := Cert.Spec.aggHalves (wA V c) (xd V c)

theorem flushed6_eq (c : Dev nD) (t : Fin cfg3.N) (hf : (cfg3.win 6).flush t = true) :
    (dat3 V c).flushed 6 t = ((cfg3.win 6).blk t).view.read (Elt Ideal) (G6 V c) := by
  have h1 : t.val % 25 = 24 := (flush3_6 t).mp hf
  have hN := N_lt t
  obtain ⟨-, -, -, -, -, -, e0, e1, e2⟩ := idx_facts t
  show (cfg3.win 6).cut (grid3.coords t) ((dat3 V c).after 6 t) = _
  rw [after3_6, outs_snd_C V c t h1, acc_inv V c t.val t.isLt, Pay.k3_pay1_eq, h1]
  funext j
  obtain ⟨l, p, q, rfl⟩ : ∃ (l : Fin 1) (p : Fin 256) (q : Fin 128), j = ix3 l p q := ⟨j 0, j 1, j 2, eq_ix3 j⟩
  rw [View.read_apply]
  have hemb : ((cfg3.win 6).blk t).view.emb (ix3 l p q) = ix3 (hOf t.val) p q := by
    funext a
    apply Fin.ext
    match a with
    | ⟨0, _⟩ => show win3_6.index t (0 : Fin 3) * 1 + 1 * l.val = t.val / 25 % 2; rw [e0]; have := l.isLt; omega
    | ⟨1, _⟩ => show win3_6.index t (1 : Fin 3) * 256 + 1 * p.val = p.val; rw [e1]; omega
    | ⟨2, _⟩ => show win3_6.index t (2 : Fin 3) * 128 + 1 * q.val = q.val; rw [e2]; omega
  rw [hemb]
  exact partialSum_last _ _ (hOf t.val) p q

theorem cover6 (i : S2x256x128.Idx) : ∃ t : Fin cfg3.N, (cfg3.win 6).flush t = true ∧ i ∈ ((cfg3.win 6).blk t).view.set := by
  obtain ⟨t, h24, h⟩ := layerCover N_3 win3_6.index (fun t => (idx_facts t).2.2.2.2.2.2) i
  refine ⟨t, (flush3_6 t).mpr h24, ?_⟩
  show i ∈ ((View.whole main_v40_1).slice (win3_6.rect t)).set
  rw [View.set_slice_whole, Rect.mem_set_unit]
  exact h

end Values

end R3

section Finals

variable (V : (c : Dev nD) → (b : Ref sig .tc) → Buf (Elt Ideal) ((c : Thread nD τ).loc b))

theorem final3_5 (c : Dev nD) : (dat3 (F := Ideal) V c).arrAt 5 cfg3.N = Cert.Spec.dataStep false (V c main_v13) (V c main_v26_0) (V c main_v27) (V c main_v33) (V c main_v36) :=
  (dat3 (F := Ideal) V c).arrAt_eq_of_cover 5 (R3.G5 V c) (fun t _ => R3.flushed5_eq V c t) R3.cover5

theorem final3_6 (c : Dev nD) : (dat3 (F := Ideal) V c).arrAt 6 cfg3.N = Cert.Spec.aggHalves (V c main_v13) (V c main_v26_0) :=
  (dat3 (F := Ideal) V c).arrAt_eq_of_cover 6 (R3.G6 V c) (fun t hf => R3.flushed6_eq V c t hf) R3.cover6

end Finals

end Cert.KernelIdeal.Val

end
-- ==== Proof.KI.Val4.lean ====
import proofs.«424668_j14448269984047_2_alg».proof.Proof.KI.Reg4
import proofs.«424668_j14448269984047_2_alg».proof.Proof.KI.Val2

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem
open Idealize.ShloMosaic.Pipeline (Dat)
open R0 R2

namespace R4

theorem pay4_apply (v0 v2 : FVec Ideal S1x256x128 .f32) (v5 : FVec Ideal S256x128 .f32) (v9 v12 : FVec Ideal S128x128 .bf16) (r : Fin 256) (q : Fin 128) :
    k4_pay1 (F := Ideal) v0 v2 v5 v9 v12 (ix2 r q) = Cert.Spec.update false (halves v0 v2) v5 v9 v12 (ix2 r q) :=
  (norm_tail_apply _ r q).trans (congrArg (fun Z : Cert.Spec.Mat 256 128 => Cert.Spec.normRows Z (ix2 r q)) (funext fun i => by
    rw [eq_ix2 i]; exact lin_apply ..))

theorem idx4 : ∀ t : Fin cfg4.N, (∀ a, win4_0.index t a = 0) ∧ (∀ a, win4_1.index t a = 0) ∧ (∀ a, win4_2.index t a = 0)
    ∧ (∀ a, win4_3.index t a = 0) ∧ ∀ a, win4_4.index t a = 0 :=
  (by decide +kernel : ∀ t : Fin grid4.N, _)

end R4

open R4

variable (V : (c : Dev nD) → (b : Ref sig .tc) → Buf (Elt Ideal) ((c : Thread nD τ).loc b))

theorem final4 (c : Dev nD) : (dat4 (F := Ideal) V c).arrAt 4 cfg4.N
    = Cert.Spec.taskStep false (V c main_v40_1) (V c main_v27) (V c main_v30) (V c main_v39) :=
  (dat4 V c).arrAt_eq_of_cover 4 _ (fun t _ => by
    obtain ⟨e0, e1, e2, e3, e4⟩ := idx4 t
    refine Eq.trans ?_ (read_zero main_v41 e4 _ _).symm
    show (cfg4.win 4).cut (grid4.coords t) ((dat4 V c).after 4 t) = _
    rw [after4_4]
    unfold out4_4
    rw [View.canon_unit_zero hz2]
    simp only [View.ld_unit_zero (S := S256x128) hz2, View.ld_unit_zero (S := S128x128) hz2]
    exact pay_eq false (k4_pay1 (F := Ideal)) pay4_apply (read_zero main_v40_1 e0 _ _) (read_zero main_v27 e1 _ _) (read_zero main_v30 e2 _ _) (read_zero main_v39 e3 _ _))
    fun i => ⟨⟨0, by decide⟩, flush4_4 _, mem_zero main_v41 (idx4 _).2.2.2.2 _ i⟩

end Cert.KernelIdeal.Val

end
-- ==== Proof.LibDotNT.lean ====
import Idealize.ShloMosaic.PureOps.Ideal.Laws
import Idealize.ShloMosaic.Lib.ValueIdx

noncomputable section

open scoped BigOperators

namespace Cert.LibDotNT

open Idealize.ShloMosaic Idealize.ShloMosaic.ValueIdx

theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  have hj := contrEquiv1_symm_val (DotDims.transposedRhs M K N) K rfl rfl j
  congr 2 <;> funext a <;> apply Fin.ext <;> match a with
    | ⟨0, _⟩ => first | rfl | exact Eq.trans rfl hj
    | ⟨1, _⟩ => first | rfl | exact Eq.trans rfl hj

end Cert.LibDotNT

end
-- ==== Proof.KI.Val5.lean ====
import proofs.«424668_j14448269984047_2_alg».proof.Proof.KI.Reg5
import proofs.«424668_j14448269984047_2_alg».proof.Proof.Spec
import proofs.«424668_j14448269984047_2_alg».proof.Proof.LibDotNT
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Val

open Cert.KernelIdeal Cert.KernelIdeal.Gen Cert.KernelIdeal.Frm Idealize.ShloMosaic.ValueIdx
open Idealize.ShloMosaic Idealize.ShloMosaic.TcCoe Idealize.SL.Sem
open Idealize.ShloMosaic.Pipeline (Dat)

theorem pay5_at (A : Cert.Spec.Mat 100000 128) (B : Cert.Spec.Mat 256 128) (x : FVec Ideal S2000x128 .bf16)
    (y : FVec Ideal S256x128 .f32) (i : S100000x256.Idx) (r : Fin 2000) (q : Fin 256)
    (hx : ∀ k : Fin 128, x (ix2 r k) = A (ix2 (i 0) k)) (hy : ∀ k : Fin 128, y (ix2 q k) = B (ix2 (i 1) k)) :
    k5_pay1 (F := Ideal) x y (ix2 r q) = Cert.Spec.mmNT A B i := by
  unfold k5_pay1
  show FloatOps.matmul dot_S2000x128_S256x128_S2000x256_1_1_0_0_n_n none (shapeCast S2000x128 x shapeCasts_S2000x128_S2000x128)
      (truncf .bf16 (shapeCast S256x128 y shapeCasts_S256x128_S256x128) bitsLt_bf16_f32) (constant S2000x256 .f32 0x00000000#32) (ix2 r q) = _
  rw [shapeCast_self, shapeCast_self]
  exact (Cert.LibDotNT.matmul_nt_apply 2000 128 256 none x (truncf .bf16 y bitsLt_bf16_f32) r q).trans
    (Finset.sum_congr rfl fun k _ => congrArg₂ (· * ·) (hx k) (hy k))

variable (V : (c : Dev nD) → (b : Ref sig .tc) → Buf (Elt Ideal) ((c : Thread nD τ).loc b))

theorem hz5 : (![0, 0] : Fin 2 → Nat) = fun _ => 0 := funext fun a => by fin_cases a <;> rfl

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed5_eq (c : Dev nD) (t : Fin cfg5.N) :
    (dat5 V c).flushed 2 t = ((cfg5.win 2).blk t).view.read (Elt Ideal) (Cert.Spec.mmNT (R := 100000) (K := 128) (C := 256) (V c main_v40_0) (V c main_v41)) := by
  show (cfg5.win 2).cut (grid5.coords t) ((dat5 V c).after 2 t) = _
  rw [after5_2]
  unfold out5_2
  rw [View.canon_unit_zero hz5]
  simp only [View.ld_unit_zero (S := S2000x128) hz5, View.ld_unit_zero (S := S256x128) hz5]
  obtain ⟨e0, e1, e2, e3, e4, e5⟩ := idx_facts5 t
  funext j
  obtain ⟨r, q, rfl⟩ : ∃ (r : Fin 2000) (q : Fin 256), j = ix2 r q := ⟨j 0, j 1, eq_ix2 j⟩
  show k5_pay1 (F := Ideal) (iblk5 V c 0 t) (iblk5 V c 1 t) (ix2 r q)
    = Cert.Spec.mmNT (R := 100000) (K := 128) (C := 256) (V c main_v40_0) (V c main_v41) (((cfg5.win 2).blk t).view.emb (ix2 r q))
  refine pay5_at (V c main_v40_0) (V c main_v41) (iblk5 V c 0 t) (iblk5 V c 1 t) _ r q (fun k => ?_) (fun k => ?_)
  · show V c main_v40_0 (((cfg5.win 0).blk t).view.emb (ix2 r k)) = V c main_v40_0 (ix2 ((((cfg5.win 2).blk t).view.emb (ix2 r q)) 0) k)
    refine congrArg (V c main_v40_0) (funext fun a => Fin.ext ?_)
    match a with
    | ⟨0, _⟩ => show win5_0.index t (0 : Fin 2) * 2000 + 1 * r.val = win5_2.index t (0 : Fin 2) * 2000 + 1 * r.val; omega
    | ⟨1, _⟩ => show win5_0.index t (1 : Fin 2) * 128 + 1 * k.val = k.val; omega
  · show V c main_v41 (((cfg5.win 1).blk t).view.emb (ix2 q k)) = V c main_v41 (ix2 ((((cfg5.win 2).blk t).view.emb (ix2 r q)) 1) k)
    refine congrArg (V c main_v41) (funext fun a => Fin.ext ?_)
    match a with
    | ⟨0, _⟩ => show win5_1.index t (0 : Fin 2) * 256 + 1 * q.val = win5_2.index t (1 : Fin 2) * 256 + 1 * q.val; omega
    | ⟨1, _⟩ => show win5_1.index t (1 : Fin 2) * 128 + 1 * k.val = k.val; omega

theorem mem_blk5 (t : Fin cfg5.N) (i : S100000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v42).slice (win5_2.rect t)).set ↔ _
  rw [View.set_slice_whole, Rect.mem_set_unit]
  exact Iff.rfl

theorem cover5 (i : S100000x256.Idx) : ∃ t : Fin cfg5.N, (cfg5.win 2).flush t = true ∧ i ∈ ((cfg5.win 2).blk t).view.set := by
  have h0 : (i 0).val < 100000 := (i 0).isLt
  have h1 : (i 1).val < 256 := (i 1).isLt
  have ht : (i 0).val / 2000 < cfg5.N := by show (i 0).val / 2000 < 50; omega
  refine ⟨⟨(i 0).val / 2000, ht⟩, flush5_2 _, ?_⟩
  rw [mem_blk5]
  obtain ⟨e0, e1, e2, e3, e4, e5⟩ := idx_facts5 ⟨(i 0).val / 2000, ht⟩
  have e4' : win5_2.index ⟨(i 0).val / 2000, ht⟩ (0 : Fin 2) = (i 0).val / 2000 := e4
  intro a
  match a with
  | ⟨0, _⟩ => show win5_2.index _ (0 : Fin 2) * 2000 ≤ (i 0).val ∧ (i 0).val < win5_2.index _ (0 : Fin 2) * 2000 + 2000; omega
  | ⟨1, _⟩ => show win5_2.index _ (1 : Fin 2) * 256 ≤ (i 1).val ∧ (i 1).val < win5_2.index _ (1 : Fin 2) * 256 + 256; omega

theorem final5 (c : Dev nD) : (dat5 (F := Ideal) V c).arrAt 2 cfg5.N = Cert.Spec.mmNT (V c main_v40_0) (V c main_v41) :=
  (dat5 V c).arrAt_eq_of_cover 2 _ (fun t _ => flushed5_eq V c t) cover5

end Cert.KernelIdeal.Val

end
-- ==== Proof.LibScatterRows.lean ====
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

-- An update lands on r exactly when, on every axis, window start plus window coordinate is r's coordinate.
theorem resultIdx?_eq_some_iff {s si u : Shape} {w : Nat} (d : ScatterDims s si u) (j : u.Idx) (idx : IVec si w)
    (r : s.Idx) : d.resultIdx? j idx = some r ↔ ∀ a, d.start j idx a + (d.window j a : ℤ) = ((r a).val : ℤ) := by
  unfold ScatterDims.resultIdx?
  split
  next h =>
    rw [Option.some.injEq, funext_iff]
    refine forall_congr' fun a => ?_
    have := h a
    rw [Fin.ext_iff]
    show (d.start j idx a + (d.window j a : ℤ)).toNat = (r a).val ↔ _
    omega
  next h =>
    refine ⟨fun hf => absurd hf (by simp), fun hr => absurd (fun a => ?_) h⟩
    have := (r a).isLt
    rw [hr a]
    omega

-- Entry (n, c) of a row scatter is the operand's entry plus the update entries (e, c) of the rows e whose index is n.
theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    let d : ScatterDims ⟨2, ![N, C]⟩ ⟨2, ![E, 1]⟩ ⟨2, ![E, C]⟩ := ⟨[1], [0], [0], 1, wf⟩
    have key : ∀ (e : Fin E) (b : Fin C), d.resultIdx? (ix2 e b) idx = some (ix2 n c) ↔
        ((idx (ix2 e 0)).toInt = (n.val : ℤ) ∧ b = c) := fun e b => by
      have hs : d.siIdx (ix2 e b) ⟨0, Nat.one_pos⟩ = ix2 e 0 :=
        funext fun a => Fin.ext (by match a with | ⟨0, _⟩ => rfl | ⟨1, _⟩ => rfl)
      rw [resultIdx?_eq_some_iff, Fin.forall_fin_two, Fin.ext_iff]
      show (idx (d.siIdx (ix2 e b) ⟨0, Nat.one_pos⟩)).toInt + ((0 : ℕ) : ℤ) = (n.val : ℤ)
        ∧ (0 : ℤ) + ((b.val : ℕ) : ℤ) = (c.val : ℤ) ↔ _
      rw [hs]
      omega
    show x (ix2 n c) + ∑ j ∈ Finset.univ.filter (fun j => d.resultIdx? j idx = some (ix2 n c)), upd j = _
    refine congrArg (fun t => x (ix2 n c) + t) ?_
    rw [Finset.sum_filter, sum_idx2]
    refine Finset.sum_congr rfl fun e _ => ?_
    by_cases hn : (idx (ix2 e 0)).toInt = (n.val : ℤ)
    · rw [if_pos hn]
      rw [Finset.sum_eq_single c (fun b _ hb => if_neg (fun h => hb ((key e b).1 h).2))
        (fun h => absurd (Finset.mem_univ c) h)]
      exact if_pos ((key e c).2 ⟨hn, rfl⟩)
    · rw [if_neg hn]
      exact Finset.sum_eq_zero fun b _ => if_neg (fun h => hn ((key e b).1 h).1)

end Cert.LibScatterRows

end
-- ==== Proof.LibScatterFlat.lean ====
import proofs.«424668_j14448269984047_2_alg».proof.Proof.LibScatterRows
import Idealize.ShloMosaic.Lib.ValueIdxRank1

noncomputable section

open scoped BigOperators

namespace Cert.LibScatterFlat

open Idealize.ShloMosaic Idealize.ShloMosaic.ValueIdx

section FlatScatter

variable {N E w : Nat} {φ : FTy}

def IsFlatScatter (d : ScatterDims ⟨1, ![N]⟩ ⟨2, ![E, 1]⟩ ⟨1, ![E]⟩) : Prop :=
  d.updateWindowDims = [] ∧ d.insertedWindowDims = [0] ∧ d.scatterDimsToOperandDims = [0] ∧ d.indexVectorDim = 1

-- Entry n of a scatter into a list is the operand's entry plus the updates whose index is n.
theorem scatterAdd_flat_apply {d : ScatterDims ⟨1, ![N]⟩ ⟨2, ![E, 1]⟩ ⟨1, ![E]⟩} (hd : IsFlatScatter d)
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e : Fin E, if (idx (ix2 e 0)).toInt = (n.val : ℤ) then upd (ix1 e) else 0 := by
  obtain ⟨h1, h2, h3, h4⟩ := hd
  cases d with
  | mk uw iw sd iv wf =>
    dsimp only at h1 h2 h3 h4
    subst h1 h2 h3 h4
    let d : ScatterDims ⟨1, ![N]⟩ ⟨2, ![E, 1]⟩ ⟨1, ![E]⟩ := ⟨[], [0], [0], 1, wf⟩
    show x (ix1 n) + ∑ j ∈ Finset.univ.filter (fun j => d.resultIdx? j idx = some (ix1 n)), upd j = _
    refine congrArg (fun t => x (ix1 n) + t) ?_
    rw [Finset.sum_filter, ← Equiv.sum_comp idxEquiv1.symm]
    refine Finset.sum_congr rfl fun e _ => if_congr ?_ rfl rfl
    have hs : d.siIdx (ix1 e) ⟨0, Nat.one_pos⟩ = ix2 e 0 :=
      funext fun a => Fin.ext (by match a with | ⟨0, _⟩ => rfl | ⟨1, _⟩ => rfl)
    rw [Cert.LibScatterRows.resultIdx?_eq_some_iff, Fin.forall_fin_one]
    show (idx (d.siIdx (ix1 e) ⟨0, Nat.one_pos⟩)).toInt + ((0 : ℕ) : ℤ) = (n.val : ℤ) ↔ _
    rw [hs]
    omega

end FlatScatter

end Cert.LibScatterFlat

end
-- ==== Proof.HostValues.lean ====
import proofs.«424668_j14448269984047_2_alg».proof.KernelIdeal
import proofs.«424668_j14448269984047_2_alg».proof.Proof.Spec
import proofs.«424668_j14448269984047_2_alg».proof.Proof.LibScatterFlat
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.HostVal

open Cert.KernelIdeal Idealize.ShloMosaic Idealize.ShloMosaic.ValueIdx

variable [Facts₀]
open Facts₀

theorem host_adj (sd st : IVec S800000 32) (ev : FVec Ideal S800000 .f32) :
    (truncf .bf16 (shapeCast S100000x256
        (Host.scatterAdd scatter_S25600000_S800000x1_S800000_n_0_0_1
          (broadcastInDim S25600000 ![] bcast_S_S25600000 (constant (F := Ideal) S_ .f32 0x00000000#32))
          (broadcastInDim S800000x1 ![0] bcast_S800000_S800000x1_0
            (select (cmpi .slt (addi (muli sd (broadcastInDim S800000 ![] bcast_S_S800000 (constantI S_ 32 256#32))) st)
                (broadcastInDim S800000 ![] bcast_S_S800000 (constantI S_ 32 0#32)))
              (addi (addi (muli sd (broadcastInDim S800000 ![] bcast_S_S800000 (constantI S_ 32 256#32))) st)
                (broadcastInDim S800000 ![] bcast_S_S800000 (constantI S_ 32 25600000#32)))
              (addi (muli sd (broadcastInDim S800000 ![] bcast_S_S800000 (constantI S_ 32 256#32))) st)))
          ev)
        shapeCasts_S25600000_S100000x256) bitsLt_bf16_f32 : FVec Ideal S100000x256 .bf16)
      = Cert.Spec.adjFlat sd st ev := by
  funext i
  obtain ⟨d, t, rfl⟩ : ∃ d t, i = ix2 d t := ⟨i 0, i 1, eq_ix2 i⟩
  have hdt : d.val * 256 + t.val < 25600000 := by have := d.isLt; have := t.isLt; omega
  rw [truncf_apply]
  rw [shapeCast_apply _ shapeCasts_S25600000_S100000x256 (ix2 d t) (ix1 ⟨d.val * 256 + t.val, hdt⟩)
    (by rw [Shape.rowMajor_val_one, Shape.rowMajor_val_two]; rfl)]
  rw [Cert.LibScatterFlat.scatterAdd_flat_apply (d := scatter_S25600000_S800000x1_S800000_n_0_0_1) ⟨rfl, rfl, rfl, rfl⟩]
  show Ideal.ofBits .f32 0x00000000#32 + _ = _
  rw [Ideal.ofBits_zero_f32, zero_add]
  refine Finset.sum_congr rfl fun e _ => ?_
  rw [broadcastInDim_apply _ bcast_S800000_S800000x1_0 _ (ix2 e 0) (ix1 e) fun a => by match a with | ⟨0, _⟩ => rfl]
  rfl

theorem host_layer (l : Fin 2) (hs : S2x128x128.Slices ![l.val, 0, 0] S1x128x128) (W : FVec Ideal S2x128x128 .f32) :
    (truncf .bf16 (shapeCast S128x128 (extractStridedSlice S1x128x128 ![l.val, 0, 0] W hs)
        shapeCasts_S1x128x128_S128x128) bitsLt_bf16_f32 : FVec Ideal S128x128 .bf16) = Cert.Spec.layerOf l W := by
  funext i
  obtain ⟨r, c, rfl⟩ : ∃ r c, i = ix2 r c := ⟨i 0, i 1, eq_ix2 i⟩
  rw [truncf_apply]
  rw [shapeCast_apply _ shapeCasts_S1x128x128_S128x128 (ix2 r c) (ix3 0 r c)
    (by rw [Shape.rowMajor_val_three, Shape.rowMajor_val_two]; show (0 * 128 + r.val) * 128 + c.val = r.val * 128 + c.val; omega)]
  exact extractStridedSlice_apply _ W hs (ix3 0 r c) (ix3 l r c) fun a => by
    match a with
    | ⟨0, _⟩ => rfl
    | ⟨1, _⟩ => exact (Nat.zero_add _).symm
    | ⟨2, _⟩ => exact (Nat.zero_add _).symm

theorem host_layer0 (W : FVec Ideal S2x128x128 .f32) :
    (truncf .bf16 (shapeCast S128x128 (extractStridedSlice S1x128x128 ![0, 0, 0] W slices_S2x128x128_S1x128x128_0_0_0)
        shapeCasts_S1x128x128_S128x128) bitsLt_bf16_f32 : FVec Ideal S128x128 .bf16) = Cert.Spec.layerOf 0 W :=
  host_layer 0 _ W

theorem host_layer1 (W : FVec Ideal S2x128x128 .f32) :
    (truncf .bf16 (shapeCast S128x128 (extractStridedSlice S1x128x128 ![1, 0, 0] W slices_S2x128x128_S1x128x128_1_0_0)
        shapeCasts_S1x128x128_S128x128) bitsLt_bf16_f32 : FVec Ideal S128x128 .bf16) = Cert.Spec.layerOf 1 W :=
  host_layer 1 _ W

end Cert.KernelIdeal.HostVal

end
-- ==== Proof.KI.Values.lean ====
import proofs.«424668_j14448269984047_2_alg».proof.Proof.KI.Run
import proofs.«424668_j14448269984047_2_alg».proof.Proof.KI.Val0
import proofs.«424668_j14448269984047_2_alg».proof.Proof.KI.Val1
import proofs.«424668_j14448269984047_2_alg».proof.Proof.KI.Val2
import proofs.«424668_j14448269984047_2_alg».proof.Proof.KI.Val3
import proofs.«424668_j14448269984047_2_alg».proof.Proof.KI.Val4
import proofs.«424668_j14448269984047_2_alg».proof.Proof.KI.Val5
import proofs.«424668_j14448269984047_2_alg».proof.Proof.HostValues
import proofs.«424668_j14448269984047_2_alg».proof.Proof.Spec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Cert.Spec

variable (m : (ℓ : Loc nD τ sig) → Buf (Elt Ideal) ℓ) (ρ : Dev nD → PrngReg)

abbrev wA (c : Dev nD) : Mat 100000 256 := adjFlat (m ((c : Thread nD τ).loc main_arg7)) (m ((c : Thread nD τ).loc main_arg8)) (m ((c : Thread nD τ).loc main_arg1))
abbrev xt0 (c : Dev nD) : Mat 256 128 := normRows (m ((c : Thread nD τ).loc main_arg2))
abbrev xd0 (c : Dev nD) : Mat 100000 128 := normRows (m ((c : Thread nD τ).loc main_arg0))
abbrev xd1 (c : Dev nD) : Mat 100000 128 := dataStep true (wA m c) (xd0 m c) (xt0 m c) (layerOf 0 (m ((c : Thread nD τ).loc main_arg4))) (layerOf 0 (m ((c : Thread nD τ).loc main_arg5)))
abbrev pA0 (c : Dev nD) : Ten 2 256 128 := aggHalves (wA m c) (xd0 m c)
abbrev xt1 (c : Dev nD) : Mat 256 128 := taskStep true (pA0 m c) (xt0 m c) (layerOf 0 (m ((c : Thread nD τ).loc main_arg3))) (layerOf 0 (m ((c : Thread nD τ).loc main_arg6)))
abbrev xd2 (c : Dev nD) : Mat 100000 128 := dataStep false (wA m c) (xd1 m c) (xt1 m c) (layerOf 1 (m ((c : Thread nD τ).loc main_arg4))) (layerOf 1 (m ((c : Thread nD τ).loc main_arg5)))
abbrev pA1 (c : Dev nD) : Ten 2 256 128 := aggHalves (wA m c) (xd1 m c)
abbrev xt2 (c : Dev nD) : Mat 256 128 := taskStep false (pA1 m c) (xt1 m c) (layerOf 1 (m ((c : Thread nD τ).loc main_arg3))) (layerOf 1 (m ((c : Thread nD τ).loc main_arg6)))

abbrev K (c : Dev nD) : Results :=
  viaMatrix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem W1_arg (c : Dev nD) (b : Ref sig Kind.tc) (h : ∀ w : Fin 2, Pipeline.arrRef spec0 w ≠ b) :
    W1 m ρ c (Proc.devRef .tc b) = m ((c : Thread nD τ).loc b) := (W1_of_ne m ρ c b h).trans rfl
theorem W2_arg0 (c : Dev nD) : W2 m ρ c (Proc.devRef .tc main_arg0) = (m ((c : Thread nD τ).loc main_arg0)) :=
  (StableHlo.after_of_writes_sub hostOps1 _ hostOps1_writes (by decide)).trans (W1_arg m ρ c main_arg0 (by decide))
theorem W4_arg (c : Dev nD) (b : Ref sig Kind.tc) (h0 : ∀ w : Fin 2, Pipeline.arrRef spec0 w ≠ b) (h1 : b ∉ hostOps1_W)
    (h2 : ∀ w : Fin 8, Pipeline.arrRef spec1 w ≠ b) (h3 : ∀ w : Fin 5, Pipeline.arrRef spec2 w ≠ b) :
    W4 m ρ c (Proc.devRef .tc b) = m ((c : Thread nD τ).loc b) :=
  (W4_of_ne m ρ c b h3).trans ((W3_of_ne m ρ c b h2).trans
    ((StableHlo.after_of_writes_sub hostOps1 _ hostOps1_writes h1).trans (W1_arg m ρ c b h0)))
theorem W2_v13 (c : Dev nD) : W2 m ρ c (Proc.devRef .tc main_v13) = wA m c := by
  show _ = adjFlat _ _ _
  rw [← W1_arg m ρ c main_arg7 (by decide), ← W1_arg m ρ c main_arg8 (by decide), ← W1_arg m ρ c main_arg1 (by decide)]
  simp only [W2, hostOps1]; after_results_simp; exact HostVal.host_adj _ _ _
theorem W2_v16 (c : Dev nD) : W2 m ρ c (Proc.devRef .tc main_v16) = layerOf 0 (m ((c : Thread nD τ).loc main_arg3)) := by
  rw [← W1_arg m ρ c main_arg3 (by decide)]
  simp only [W2, hostOps1]; after_results; exact HostVal.host_layer0 _
theorem W2_v19 (c : Dev nD) : W2 m ρ c (Proc.devRef .tc main_v19) = layerOf 0 (m ((c : Thread nD τ).loc main_arg4)) := by
  rw [← W1_arg m ρ c main_arg4 (by decide)]
  simp only [W2, hostOps1]; after_results; exact HostVal.host_layer0 _
theorem W2_v22 (c : Dev nD) : W2 m ρ c (Proc.devRef .tc main_v22) = layerOf 0 (m ((c : Thread nD τ).loc main_arg5)) := by
  rw [← W1_arg m ρ c main_arg5 (by decide)]
  simp only [W2, hostOps1]; after_results; exact HostVal.host_layer0 _
theorem W2_v25 (c : Dev nD) : W2 m ρ c (Proc.devRef .tc main_v25) = layerOf 0 (m ((c : Thread nD τ).loc main_arg6)) := by
  rw [← W1_arg m ρ c main_arg6 (by decide)]
  simp only [W2, hostOps1]; after_results; exact HostVal.host_layer0 _
theorem W2_v0 (c : Dev nD) : W2 m ρ c (Proc.devRef .tc main_v0) = xt0 m c :=
  (StableHlo.after_of_writes_sub hostOps1 _ hostOps1_writes (by decide)).trans ((W1_arr m ρ c 1).trans (final0 (V0 m ρ) c))

theorem W3_v26_0 (c : Dev nD) : W3 m ρ c (Proc.devRef .tc main_v26_0) = xd1 m c := by
  refine (W3_arr m ρ c 5).trans ((final1_5 (V2 m ρ) c).trans ?_)
  simp only [Frm.V2]
  rw [W2_v13, W2_arg0, W2_v0, W2_v19, W2_v22]
theorem W3_v26_1 (c : Dev nD) : W3 m ρ c (Proc.devRef .tc main_v26_1) = xd0 m c := by
  refine (W3_arr m ρ c 6).trans ((final1_6 (V2 m ρ) c).trans ?_)
  simp only [Frm.V2]
  rw [W2_arg0]
theorem W3_v26_2 (c : Dev nD) : W3 m ρ c (Proc.devRef .tc main_v26_2) = pA0 m c := by
  refine (W3_arr m ρ c 7).trans ((final1_7 (V2 m ρ) c).trans ?_)
  simp only [Frm.V2]
  rw [W2_v13, W2_arg0]
theorem W3_v0 (c : Dev nD) : W3 m ρ c (Proc.devRef .tc main_v0) = xt0 m c :=
  (W3_arr m ρ c 2).trans (((dat1 (V2 m ρ) c).arrAt_in 2 rfl _).trans ((A_eq1 (V2 m ρ) c 2).trans (W2_v0 m ρ c)))
theorem W3_v16 (c : Dev nD) : W3 m ρ c (Proc.devRef .tc main_v16) = layerOf 0 (m ((c : Thread nD τ).loc main_arg3)) :=
  (W3_of_ne m ρ c main_v16 (by decide)).trans (W2_v16 m ρ c)
theorem W3_v25 (c : Dev nD) : W3 m ρ c (Proc.devRef .tc main_v25) = layerOf 0 (m ((c : Thread nD τ).loc main_arg6)) :=
  (W3_of_ne m ρ c main_v25 (by decide)).trans (W2_v25 m ρ c)

theorem W4_v27 (c : Dev nD) : W4 m ρ c (Proc.devRef .tc main_v27) = xt1 m c := by
  refine (W4_arr m ρ c 4).trans ((final2 (V3 m ρ) c).trans ?_)
  simp only [Frm.V3]
  rw [W3_v26_2, W3_v0, W3_v16, W3_v25]
theorem W5_v30 (c : Dev nD) : W5 m ρ c (Proc.devRef .tc main_v30) = layerOf 1 (m ((c : Thread nD τ).loc main_arg3)) := by
  rw [← W4_arg m ρ c main_arg3 (by decide) (by decide) (by decide) (by decide)]
  simp only [W5, hostOps3]; after_results; exact HostVal.host_layer1 _
theorem W5_v33 (c : Dev nD) : W5 m ρ c (Proc.devRef .tc main_v33) = layerOf 1 (m ((c : Thread nD τ).loc main_arg4)) := by
  rw [← W4_arg m ρ c main_arg4 (by decide) (by decide) (by decide) (by decide)]
  simp only [W5, hostOps3]; after_results; exact HostVal.host_layer1 _
theorem W5_v36 (c : Dev nD) : W5 m ρ c (Proc.devRef .tc main_v36) = layerOf 1 (m ((c : Thread nD τ).loc main_arg5)) := by
  rw [← W4_arg m ρ c main_arg5 (by decide) (by decide) (by decide) (by decide)]
  simp only [W5, hostOps3]; after_results; exact HostVal.host_layer1 _
theorem W5_v39 (c : Dev nD) : W5 m ρ c (Proc.devRef .tc main_v39) = layerOf 1 (m ((c : Thread nD τ).loc main_arg6)) := by
  rw [← W4_arg m ρ c main_arg6 (by decide) (by decide) (by decide) (by decide)]
  simp only [W5, hostOps3]; after_results; exact HostVal.host_layer1 _
theorem W5_v13 (c : Dev nD) : W5 m ρ c (Proc.devRef .tc main_v13) = wA m c :=
  (StableHlo.after_of_writes_sub hostOps3 _ hostOps3_writes (by decide)).trans ((W4_of_ne m ρ c main_v13 (by decide)).trans ((W3_arr m ρ c 0).trans
    (((dat1 (V2 m ρ) c).arrAt_in 0 rfl _).trans ((A_eq1 (V2 m ρ) c 0).trans (W2_v13 m ρ c)))))
theorem W5_v26_0 (c : Dev nD) : W5 m ρ c (Proc.devRef .tc main_v26_0) = xd1 m c :=
  (StableHlo.after_of_writes_sub hostOps3 _ hostOps3_writes (by decide)).trans ((W4_of_ne m ρ c main_v26_0 (by decide)).trans (W3_v26_0 m ρ c))
theorem W5_v27 (c : Dev nD) : W5 m ρ c (Proc.devRef .tc main_v27) = xt1 m c :=
  (StableHlo.after_of_writes_sub hostOps3 _ hostOps3_writes (by decide)).trans (W4_v27 m ρ c)
theorem W6_v40_0 (c : Dev nD) : W6 m ρ c (Proc.devRef .tc main_v40_0) = xd2 m c := by
  refine (W6_arr m ρ c 5).trans ((final3_5 (V5 m ρ) c).trans ?_)
  simp only [Frm.V5]
  rw [W5_v13, W5_v26_0, W5_v27, W5_v33, W5_v36]
theorem W6_v40_1 (c : Dev nD) : W6 m ρ c (Proc.devRef .tc main_v40_1) = pA1 m c := by
  refine (W6_arr m ρ c 6).trans ((final3_6 (V5 m ρ) c).trans ?_)
  simp only [Frm.V5]
  rw [W5_v13, W5_v26_0]
theorem W6_v27 (c : Dev nD) : W6 m ρ c (Proc.devRef .tc main_v27) = xt1 m c :=
  (W6_arr m ρ c 2).trans (((dat3 (V5 m ρ) c).arrAt_in 2 rfl _).trans ((A_eq3 (V5 m ρ) c 2).trans (W5_v27 m ρ c)))
theorem W6_v30 (c : Dev nD) : W6 m ρ c (Proc.devRef .tc main_v30) = layerOf 1 (m ((c : Thread nD τ).loc main_arg3)) :=
  (W6_of_ne m ρ c main_v30 (by decide)).trans (W5_v30 m ρ c)
theorem W6_v39 (c : Dev nD) : W6 m ρ c (Proc.devRef .tc main_v39) = layerOf 1 (m ((c : Thread nD τ).loc main_arg6)) :=
  (W6_of_ne m ρ c main_v39 (by decide)).trans (W5_v39 m ρ c)
theorem W7_v41 (c : Dev nD) : W7 m ρ c (Proc.devRef .tc main_v41) = xt2 m c := by
  refine (W7_arr m ρ c 4).trans ((final4 (V6 m ρ) c).trans ?_)
  simp only [Frm.V6]
  rw [W6_v40_1, W6_v27, W6_v30, W6_v39]
theorem W7_v40_0 (c : Dev nD) : W7 m ρ c (Proc.devRef .tc main_v40_0) = xd2 m c :=
  (W7_of_ne m ρ c main_v40_0 (by decide)).trans (W6_v40_0 m ρ c)
theorem W8_v42 (c : Dev nD) : W8 m ρ c (Proc.devRef .tc main_v42) = (K m c).pred := by
  refine (W8_arr m ρ c 2).trans ((final5 (V7 m ρ) c).trans ?_)
  simp only [Frm.V7]
  rw [W7_v40_0, W7_v41]
  rfl
theorem W8_v26_1 (c : Dev nD) : W8 m ρ c (Proc.devRef .tc main_v26_1) = (K m c).dataEmb :=
  (W8_of_ne m ρ c main_v26_1 (by decide)).trans ((W7_of_ne m ρ c main_v26_1 (by decide)).trans ((W6_of_ne m ρ c main_v26_1 (by decide)).trans
    ((StableHlo.after_of_writes_sub hostOps3 _ hostOps3_writes (by decide)).trans ((W4_of_ne m ρ c main_v26_1 (by decide)).trans (W3_v26_1 m ρ c)))))
theorem W8_v0 (c : Dev nD) : W8 m ρ c (Proc.devRef .tc main_v0) = (K m c).taskEmb :=
  (W8_of_ne m ρ c main_v0 (by decide)).trans ((W7_of_ne m ρ c main_v0 (by decide)).trans ((W6_of_ne m ρ c main_v0 (by decide)).trans
    ((StableHlo.after_of_writes_sub hostOps3 _ hostOps3_writes (by decide)).trans ((W4_arr m ρ c 1).trans (((dat2 (V3 m ρ) c).arrAt_in 1 rfl _).trans
    ((A_eq2 (V3 m ρ) c 1).trans (W3_v0 m ρ c)))))))

theorem run_values : θ_run (defs (F := Ideal)) (onTc (τ := τ) (main (F := Ideal))) ⟨m, fun _ => 0, ρ⟩ (fun r => ∀ c : Dev nD,
      r.2.mem ((c.tc : Thread nD τ).loc main_v42) = (K m c).pred
      ∧ r.2.mem ((c.tc : Thread nD τ).loc main_v26_1) = (K m c).dataEmb
      ∧ r.2.mem ((c.tc : Thread nD τ).loc main_v0) = (K m c).taskEmb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have g := fun b hb => h c _ (mem_uc b hb)
    ⟨(g main_v42 (by decide)).trans (W8_v42 m ρ c),
     (g main_v26_1 (by decide)).trans (W8_v26_1 m ρ c),
     (g main_v0 (by decide)).trans (W8_v0 m ρ c),
     (g main_arg0 (by decide)).trans (W8_main_arg0 m ρ c),
     (g main_arg1 (by decide)).trans (W8_main_arg1 m ρ c),
     (g main_arg2 (by decide)).trans (W8_main_arg2 m ρ c),
     (g main_arg3 (by decide)).trans (W8_main_arg3 m ρ c),
     (g main_arg4 (by decide)).trans (W8_main_arg4 m ρ c),
     (g main_arg5 (by decide)).trans (W8_main_arg5 m ρ c),
     (g main_arg6 (by decide)).trans (W8_main_arg6 m ρ c),
     (g main_arg7 (by decide)).trans (W8_main_arg7 m ρ c),
     (g main_arg8 (by decide)).trans (W8_main_arg8 m ρ c)⟩) (run_all m ρ)

end Cert.KernelIdeal.Val

end
-- ==== Proof.RefIs.lean ====
import proofs.«424668_j14448269984047_2_alg».proof.Proof.Gen.ReferenceIdeal.Run
import proofs.«424668_j14448269984047_2_alg».proof.Proof.Gen.ReferenceIdeal.Read
import proofs.«424668_j14448269984047_2_alg».proof.Proof.Spec
import proofs.«424668_j14448269984047_2_alg».proof.Proof.LibScatterRows

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

theorem normData_eq (y : (⟨S100000x128, .f32⟩ : BufTy).Contents (Elt Ideal)) :
    val_main_v3 (F := Ideal) y = Cert.Spec.normRows y := by
  funext i
  have hi : ∀ k : Fin 128, idx_main_call0_v1 (idx_main_call0_v2 (idx_main_v2 i)) k = ix2 (i 0) k := fun _ => eq_ix2 _
  rw [val_main_v3_apply, val_main_v2_apply, val_main_v1_apply, val_main_call1_v1_apply, val_main_call1_v0_apply,
    val_main_cst_apply, val_main_v0_apply, val_main_call0_v2_apply, val_main_call0_v1_apply, val_main_call0_cst_apply]
  simp only [val_main_call0_v0_apply, hi, Ideal.ofBits_def, Ideal.ofBits_zero_f32, zero_add, Ideal.hostDivf_def,
    Ideal.maximumf_def, Ideal.hostUnary_sqrt_def, Ideal.mulf_def]
  rfl

theorem normTask_eq (y : (⟨S256x128, .f32⟩ : BufTy).Contents (Elt Ideal)) :
    val_main_v7 (F := Ideal) y = Cert.Spec.normRows y := by
  funext i
  have hi : ∀ k : Fin 128, idx_main_call2_v1 (idx_main_call2_v2 (idx_main_v6 i)) k = ix2 (i 0) k := fun _ => eq_ix2 _
  rw [val_main_v7_apply, val_main_v6_apply, val_main_v5_apply, val_main_call3_v1_apply, val_main_call3_v0_apply,
    val_main_cst_0_apply, val_main_v4_apply, val_main_call2_v2_apply, val_main_call2_v1_apply, val_main_call2_cst_apply]
  simp only [val_main_call2_v0_apply, hi, Ideal.ofBits_def, Ideal.ofBits_zero_f32, zero_add, Ideal.hostDivf_def,
    Ideal.maximumf_def, Ideal.hostUnary_sqrt_def, Ideal.mulf_def]
  rfl

section Gather
variable {α : Type} {N E C : Nat}

abbrev rowGather (hwf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := hwf }

-- A gather of whole rows reads, at (e, c), column c of the row named by start word e, read signed and held inside the rows.
theorem rowGather_apply_of {w : Nat} {g : GatherDims ⟨2, ![N, C]⟩ ⟨2, ![E, 1]⟩ ⟨2, ![E, C]⟩} (hwf)
    (hg : g = rowGather (N := N) hwf) (hN : 0 < N) (x : (⟨2, ![N, C]⟩ : Shape).Idx → α) (idx : IVec ⟨2, ![E, 1]⟩ w)
    (e : Fin E) (c : Fin C) (wd : BitVec w) (hw : idx (ix2 e 0) = wd) :
    Host.gather g x idx (ix2 e c) = x (ix2 ⟨min wd.toInt.toNat (N - 1), by omega⟩ c) := by
  subst hg hw
  let G := rowGather (N := N) hwf
  unfold Host.gather
  congr 1
  funext a
  refine Fin.ext ?_
  match a with
  | ⟨0, _⟩ =>
    show G.start (ix2 e c) idx 0 + G.batchCoord (ix2 e c) 0
      + G.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 e c) ⟨List.idxOf (0 : Fin 2) G.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show G.start (ix2 e c) idx 1 + G.batchCoord (ix2 e c) 1
      + G.offCoord (ix2 e c) 1 = c.val
    rw [GatherDims.batchCoord_eq_zero _ _ _ List.not_mem_nil]
    have hs : G.start (ix2 e c) idx 1 = 0 := by
      unfold GatherDims.start
      rw [dif_neg (fun h : (1 : Fin 2) ∈ G.startIndexMap =>
        absurd (List.mem_singleton.mp h) (show ¬ ((1 : Fin 2) = 0) by decide))]
    rw [hs]
    simp only [Nat.add_zero, Nat.zero_add]
    rfl

end Gather

theorem toTasksH_eq (xd : FVec Ideal S100000x128 .f32) (x1 : FVec Ideal S800000 .f32) (x7 x8 : IVec S800000 32) :
    Host.scatterAdd (F := Ideal) scatter_S256x128_S800000x1_S800000x128_1_0_0_1 (val_main_v18 (F := Ideal))
      (val_main_v19 (F := Ideal) x8)
      (mulf (F := Ideal) (Host.gather gather_S100000x128_S800000x1_S800000x128_1_0_n_n_0_1_1128 xd (val_main_v14 (F := Ideal) x7))
        (val_main_v16 (F := Ideal) x1))
      = Cert.Spec.toTasks x7 x8 x1 xd := by
  funext i
  obtain ⟨n, c, rfl⟩ : ∃ (n : Fin 256) (c : Fin 128), i = ix2 n c := ⟨i 0, i 1, eq_ix2 i⟩
  have h19 : ∀ e : Fin 800000, idx_main_v19 (ix2 e (0 : Fin 1)) = ix1 e := fun _ => eq_ix1 _
  have h14 : ∀ e : Fin 800000, idx_main_v14 (ix2 e (0 : Fin 1)) = ix1 e := fun _ => eq_ix1 _
  have h16 : ∀ (e : Fin 800000) (c : Fin 128), idx_main_v8 (idx_main_v16 (ix2 e c)) = ix1 e := fun _ _ => eq_ix1 _
  have hw : ∀ e : Fin 800000, val_main_v14 (F := Ideal) x7 (ix2 e (0 : Fin 1))
      = Scalar.select (IntOp.cmpi .slt (x7 (ix1 e)) 0#32) (IntOp.addi (x7 (ix1 e)) (BitVec.ofNat 32 100000)) (x7 (ix1 e)) := fun e => by
    rw [val_main_v14_apply, h14, val_main_v13_apply, val_main_v10_apply, val_main_v12_apply,
      val_main_v9_apply, val_main_c_apply, val_main_v11_apply, val_main_c_1_apply]
  rw [Cert.LibScatterRows.scatterAdd_rows_apply _ rfl rfl rfl rfl, val_main_v18_apply, val_main_cst_2_apply]
  simp only [Ideal.ofBits_def, Ideal.ofBits_zero_f32, zero_add]
  refine Finset.sum_congr rfl fun e _ => ?_
  rw [val_main_v19_apply, h19]
  show (if _ then FloatOps.mulf (Host.gather _ xd (val_main_v14 (F := Ideal) x7) (ix2 e c)) (val_main_v16 (F := Ideal) x1 (ix2 e c)) else 0) = _
  rw [rowGather_apply_of (g := gather_S100000x128_S800000x1_S800000x128_1_0_n_n_0_1_1128)
    gather_S100000x128_S800000x1_S800000x128_1_0_n_n_0_1_1128_wf rfl (by decide) xd _ e c _ (hw e), val_main_v16_apply, val_main_v8_apply, h16]
  rfl

theorem toDataH_eq (xt : FVec Ideal S256x128 .f32) (x1 : FVec Ideal S800000 .f32) (x7 x8 : IVec S800000 32) :
    Host.scatterAdd (F := Ideal) scatter_S100000x128_S800000x1_S800000x128_1_0_0_1 (val_main_v30 (F := Ideal))
      (val_main_v31 (F := Ideal) x7)
      (mulf (F := Ideal) (Host.gather gather_S256x128_S800000x1_S800000x128_1_0_n_n_0_1_1128 xt (val_main_v26 (F := Ideal) x8))
        (val_main_v28 (F := Ideal) x1))
      = Cert.Spec.toData x7 x8 x1 xt := by
  funext i
  obtain ⟨n, c, rfl⟩ : ∃ (n : Fin 100000) (c : Fin 128), i = ix2 n c := ⟨i 0, i 1, eq_ix2 i⟩
  have h31 : ∀ e : Fin 800000, idx_main_v31 (ix2 e (0 : Fin 1)) = ix1 e := fun _ => eq_ix1 _
  have h26 : ∀ e : Fin 800000, idx_main_v26 (ix2 e (0 : Fin 1)) = ix1 e := fun _ => eq_ix1 _
  have h28 : ∀ (e : Fin 800000) (c : Fin 128), idx_main_v8 (idx_main_v28 (ix2 e c)) = ix1 e := fun _ _ => eq_ix1 _
  have hw : ∀ e : Fin 800000, val_main_v26 (F := Ideal) x8 (ix2 e (0 : Fin 1))
      = Scalar.select (IntOp.cmpi .slt (x8 (ix1 e)) 0#32) (IntOp.addi (x8 (ix1 e)) (BitVec.ofNat 32 256)) (x8 (ix1 e)) := fun e => by
    rw [val_main_v26_apply, h26, val_main_v25_apply, val_main_v22_apply, val_main_v24_apply,
      val_main_v21_apply, val_main_c_3_apply, val_main_v23_apply, val_main_c_4_apply]
  rw [Cert.LibScatterRows.scatterAdd_rows_apply _ rfl rfl rfl rfl, val_main_v30_apply, val_main_cst_5_apply]
  simp only [Ideal.ofBits_def, Ideal.ofBits_zero_f32, zero_add]
  refine Finset.sum_congr rfl fun e _ => ?_
  rw [val_main_v31_apply, h31]
  show (if _ then FloatOps.mulf (Host.gather _ xt (val_main_v26 (F := Ideal) x8) (ix2 e c)) (val_main_v28 (F := Ideal) x1 (ix2 e c)) else 0) = _
  rw [rowGather_apply_of (g := gather_S256x128_S800000x1_S800000x128_1_0_n_n_0_1_1128)
    gather_S256x128_S800000x1_S800000x128_1_0_n_n_0_1_1128_wf rfl (by decide) xt _ e c _ (hw e), val_main_v28_apply, val_main_v8_apply, h28]
  rfl

theorem layer0_eq (W : FVec Ideal S2x128x128 .f32) : val_main_v34 (F := Ideal) W = Cert.Spec.layerOf 0 W := by
  funext i
  rw [val_main_v34_apply, val_main_v33_apply]
  refine congrArg W (funext fun a => Fin.ext ?_)
  have h0 : (i 0).val < 128 := idx2_lt0 i
  have h1 : (i 1).val < 128 := idx2_lt1 i
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

theorem layer1_eq (W : FVec Ideal S2x128x128 .f32) : val_main_v82 (F := Ideal) W = Cert.Spec.layerOf 1 W := by
  funext i
  rw [val_main_v82_apply, val_main_v81_apply]
  refine congrArg W (funext fun a => Fin.ext ?_)
  have h0 : (i 0).val < 128 := idx2_lt0 i
  have h1 : (i 1).val < 128 := idx2_lt1 i
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

-- A product contracting the one shared axis of extent 128 is the sum over that axis.
theorem mm_eq {R C : Nat} (D : DotDims ⟨2, ![R, 128]⟩ ⟨2, ![128, C]⟩ ⟨2, ![R, C]⟩) (hr : D.contr.rank = 1)
    (hs : D.contr.size ⟨0, by omega⟩ = 128)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (a : FVec Ideal ⟨2, ![R, 128]⟩ .f32) (b : FVec Ideal ⟨2, ![128, C]⟩ .f32) :
    Host.dotGeneral (F := Ideal) D none a b = Cert.Spec.mm a b := by
  funext i
  show _ = ∑ k : Fin 128, a (ix2 (i 0) k) * b (ix2 k (i 1))
  simp only [Host.dotGeneral]
  rw [Ideal.dotGeneral_apply, ← Equiv.sum_comp (contrEquiv1 D 128 hr hs).symm]
  refine Finset.sum_congr rfl fun k _ => ?_
  have hk := contrEquiv1_symm_val D 128 hr hs k
  have el : D.lhsIdx i ((contrEquiv1 D 128 hr hs).symm k) = ix2 (i 0) k :=
    funext fun c => Fin.ext (by
      match c with
      | ⟨0, _⟩ => exact l0 _ _
      | ⟨1, _⟩ => exact (l1 _ _).trans hk)
  have er : D.rhsIdx i ((contrEquiv1 D 128 hr hs).symm k) = ix2 k (i 1) :=
    funext fun c => Fin.ext (by
      match c with
      | ⟨0, _⟩ => exact (r0 _ _).trans hk
      | ⟨1, _⟩ => exact r1 _ _)
  rw [el, er]
  rfl

theorem mmTask_eq (a : FVec Ideal S256x128 .f32) (b : FVec Ideal S128x128 .f32) :
    Host.dotGeneral (F := Ideal) dot_S256x128_S128x128_S256x128_1_0_0_1_n_n none a b = Cert.Spec.mm a b :=
  mm_eq _ rfl rfl lhs_main_v38_0 lhs_main_v38_1 rhs_main_v38_0 rhs_main_v38_1 a b

theorem mmData_eq (a : FVec Ideal S100000x128 .f32) (b : FVec Ideal S128x128 .f32) :
    Host.dotGeneral (F := Ideal) dot_S100000x128_S128x128_S100000x128_1_0_0_1_n_n none a b = Cert.Spec.mm a b :=
  mm_eq _ rfl rfl lhs_main_v45_0 lhs_main_v45_1 rhs_main_v45_0 rhs_main_v45_1 a b

theorem mmPred_eq (a : FVec Ideal S100000x128 .f32) (b : FVec Ideal S256x128 .f32) :
    Host.dotGeneral (F := Ideal) dot_S100000x128_S128x256_S100000x256_1_0_0_1_n_n none a
      (transpose S128x256 [1, 0] b transposes_S256x128_S128x256_1_0) = Cert.Spec.mmNT a b := by
  rw [mm_eq _ rfl rfl lhs_main_v104_0 lhs_main_v104_1 rhs_main_v104_0 rhs_main_v104_1]
  funext i
  refine Finset.sum_congr rfl fun k _ => ?_
  rw [transpose_apply [1, 0] b transposes_S256x128_S128x256_1_0 (ix2 k (i 1)) (ix2 (i 1) k)
    (fun c => match c with | ⟨0, _⟩ => rfl | ⟨1, _⟩ => rfl)]

-- A node's new row, for either kind of node and either round: f is the clamp at zero or nothing.
theorem upd_eq {R : Nat} {nrm : FVec Ideal ⟨2, ![R, 128]⟩ .f32 → FVec Ideal ⟨2, ![R, 128]⟩ .f32}
    (hn : ∀ y, nrm y = Cert.Spec.normRows y) {D : DotDims ⟨2, ![R, 128]⟩ S128x128 ⟨2, ![R, 128]⟩}
    (hD : ∀ (a : FVec Ideal ⟨2, ![R, 128]⟩ .f32) (b : FVec Ideal S128x128 .f32),
      Host.dotGeneral (F := Ideal) D none a b = Cert.Spec.mm a b)
    (relu : Bool) (f : FVec Ideal ⟨2, ![R, 128]⟩ .f32 → FVec Ideal ⟨2, ![R, 128]⟩ .f32)
    (hf : ∀ s i, f s i = if relu then max (s i) 0 else s i)
    {agg own : FVec Ideal ⟨2, ![R, 128]⟩ .f32} {L1 L2 : FVec Ideal S128x128 .f32}
    {agg' own' : Cert.Spec.Mat R 128} {M1 M2 : Cert.Spec.Mat 128 128}
    (ha : agg = agg') (ho : own = own') (h1 : L1 = M1) (h2 : L2 = M2) :
    nrm (f (addf (F := Ideal) (Host.dotGeneral (F := Ideal) (φ₂ := .f32) D none agg L1)
      (Host.dotGeneral (F := Ideal) (φ₂ := .f32) D none own L2))) = Cert.Spec.update relu agg' own' M1 M2 := by
  subst ha ho h1 h2
  rw [hn, hD, hD]
  exact congrArg Cert.Spec.normRows (funext fun i => hf _ i)

section Whole
variable (x0 : FVec Ideal S100000x128 .f32) (x1 : FVec Ideal S800000 .f32) (x2 : FVec Ideal S256x128 .f32)
  (x3 x4 x5 x6 : FVec Ideal S2x128x128 .f32) (x7 x8 : IVec S800000 32)

theorem taskRound1_eq :
    val_main_v52 (F := Ideal) x0 x1 x2 x3 x6 x7 x8
      = Cert.Spec.update true (Cert.Spec.toTasks x7 x8 x1 (Cert.Spec.normRows x0)) (Cert.Spec.normRows x2)
          (Cert.Spec.layerOf 0 x3) (Cert.Spec.layerOf 0 x6) :=
  upd_eq normTask_eq mmTask_eq true (fun s => maximumf (F := Ideal) s (val_main_call4_v0 (F := Ideal)))
    (fun s i => by
      show max _ (val_main_call4_v0 (F := Ideal) i) = _
      rw [val_main_call4_v0_apply, val_main_call4_cst_apply, Ideal.ofBits_def, Ideal.ofBits_zero_f32]
      rfl)
    ((toTasksH_eq _ x1 x7 x8).trans (congrArg (Cert.Spec.toTasks x7 x8 x1) (normData_eq x0)))
    (normTask_eq x2) (layer0_eq x3) (layer0_eq x6)

theorem dataRound1_eq :
    val_main_v56 (F := Ideal) x0 x1 x2 x4 x5 x7 x8
      = Cert.Spec.update true (Cert.Spec.toData x7 x8 x1 (Cert.Spec.normRows x2)) (Cert.Spec.normRows x0)
          (Cert.Spec.layerOf 0 x4) (Cert.Spec.layerOf 0 x5) :=
  upd_eq normData_eq mmData_eq true (fun s => maximumf (F := Ideal) s (val_main_call5_v0 (F := Ideal)))
    (fun s i => by
      show max _ (val_main_call5_v0 (F := Ideal) i) = _
      rw [val_main_call5_v0_apply, val_main_call5_cst_apply, Ideal.ofBits_def, Ideal.ofBits_zero_f32]
      rfl)
    ((toDataH_eq _ x1 x7 x8).trans (congrArg (Cert.Spec.toData x7 x8 x1) (normTask_eq x2)))
    (normData_eq x0) (layer0_eq x4) (layer0_eq x5)

theorem taskRound2_eq :
    val_main_v98 (F := Ideal) x0 x1 x2 x3 x4 x5 x6 x7 x8
      = Cert.Spec.update false (Cert.Spec.toTasks x7 x8 x1 (val_main_v56 (F := Ideal) x0 x1 x2 x4 x5 x7 x8))
          (val_main_v52 (F := Ideal) x0 x1 x2 x3 x6 x7 x8) (Cert.Spec.layerOf 1 x3) (Cert.Spec.layerOf 1 x6) :=
  upd_eq normTask_eq mmTask_eq false (fun s => s) (fun _ _ => rfl) (toTasksH_eq _ x1 x7 x8) rfl (layer1_eq x3) (layer1_eq x6)

theorem dataRound2_eq :
    val_main_v102 (F := Ideal) x0 x1 x2 x3 x4 x5 x6 x7 x8
      = Cert.Spec.update false (Cert.Spec.toData x7 x8 x1 (val_main_v52 (F := Ideal) x0 x1 x2 x3 x6 x7 x8))
          (val_main_v56 (F := Ideal) x0 x1 x2 x4 x5 x7 x8) (Cert.Spec.layerOf 1 x4) (Cert.Spec.layerOf 1 x5) :=
  upd_eq normData_eq mmData_eq false (fun s => s) (fun _ _ => rfl) (toDataH_eq _ x1 x7 x8) rfl (layer1_eq x4) (layer1_eq x5)

theorem pred_eq :
    val_main_v104 (F := Ideal) x0 x1 x2 x3 x4 x5 x6 x7 x8
      = (Cert.Spec.edgeByEdge x0 x1 x2 x3 x4 x5 x6 x7 x8).pred :=
  (mmPred_eq _ _).trans (by rw [dataRound2_eq, taskRound2_eq, taskRound1_eq, dataRound1_eq]; rfl)

end Whole

abbrev E (m : (ℓ : Loc nD τ sig) → Buf (Elt Ideal) ℓ) (c : Dev nD) : Cert.Spec.Results :=
  Cert.Spec.edgeByEdge (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v104) = (E m c).pred
      ∧ r.2.mem ((c.tc : Thread nD τ).loc main_v3) = (E m c).dataEmb
      ∧ r.2.mem ((c.tc : Thread nD τ).loc main_v7) = (E m c).taskEmb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (Cert.ReferenceIdeal.defs (F := Ideal)) _ _).mono (fun r h c =>
    ⟨(h c).1.trans ((val_main_v104_eq m c).trans (pred_eq _ _ _ _ _ _ _ _ _)),
      (h c).2.1.trans ((val_main_v3_eq _).trans (normData_eq _)),
      (h c).2.2.1.trans ((val_main_v7_eq _).trans (normTask_eq _)),
      (h c).2.2.2⟩)
    (Cert.ReferenceIdeal.Value.run (F := Ideal) m ρ)

end Cert.ReferenceIdeal.RefValue
end
-- ==== Proof.Bridge.lean ====
import proofs.«424668_j14448269984047_2_alg».proof.Proof.Spec
import Mathlib.Data.EReal.Inv
import Mathlib.Algebra.BigOperators.Fin
import Mathlib.Algebra.BigOperators.Ring.Finset
import Mathlib.Algebra.Order.BigOperators.Group.Finset
import Mathlib.Data.Fintype.BigOperators
import Mathlib.Analysis.SpecialFunctions.Pow.Real

noncomputable section
open scoped BigOperators
namespace Cert.Spec.Bridge
open Idealize.ShloMosaic Idealize.ShloMosaic.ValueIdx Cert.Spec

def IsR (x : EReal) : Prop := ∃ r : ℝ, x = (r : EReal)

theorem isR_zero : IsR 0 := ⟨0, rfl⟩
theorem isR_mul {x y : EReal} (hx : IsR x) (hy : IsR y) : IsR (x * y) := by
  obtain ⟨a, rfl⟩ := hx; obtain ⟨b, rfl⟩ := hy; exact ⟨a * b, (EReal.coe_mul a b).symm⟩
theorem isR_add {x y : EReal} (hx : IsR x) (hy : IsR y) : IsR (x + y) := by
  obtain ⟨a, rfl⟩ := hx; obtain ⟨b, rfl⟩ := hy; exact ⟨a + b, (EReal.coe_add a b).symm⟩
theorem isR_max {x y : EReal} (hx : IsR x) (hy : IsR y) : IsR (max x y) := by
  rcases max_choice x y with h | h <;> rw [h] <;> assumption
theorem isR_ite {p : Prop} [Decidable p] {x y : EReal} (hx : IsR x) (hy : IsR y) : IsR (if p then x else y) := by
  split <;> assumption
theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem isR_sum {ι : Type*} (s : Finset ι) (f : ι → EReal) (h : ∀ i, IsR (f i)) : IsR (∑ i ∈ s, f i) := by
  choose g hg using h
  exact ⟨∑ i ∈ s, g i, by rw [coe_sum]; exact Finset.sum_congr rfl fun i _ => hg i⟩

theorem eps_pos_real : ∃ c : ℝ, 0 < c ∧ eps = (c : EReal) :=
  ⟨9223372 * (2 ^ 63)⁻¹, by positivity, by simp [eps, Ideal.ofBits, Ideal.ieee, -EReal.coe_mul]⟩

theorem rowLen_pos_real {R C : Nat} (x : Mat R C) (hx : AllReal x) (r : Fin R) :
    ∃ c : ℝ, 0 < c ∧ rowLen x r = (c : EReal) := by
  obtain ⟨c, hc, he⟩ := eps_pos_real
  choose xr hxr using hx
  have hs : (∑ k : Fin C, x (ix2 r k) * x (ix2 r k)) = ((∑ k : Fin C, xr (ix2 r k) * xr (ix2 r k) : ℝ) : EReal) := by
    rw [coe_sum]; exact Finset.sum_congr rfl fun k _ => by rw [hxr, EReal.coe_mul]
  have hnn : 0 ≤ ∑ k : Fin C, xr (ix2 r k) * xr (ix2 r k) := Finset.sum_nonneg fun k _ => mul_self_nonneg _
  refine ⟨max c (Real.sqrt (∑ k : Fin C, xr (ix2 r k) * xr (ix2 r k))), lt_max_of_lt_left hc, ?_⟩
  unfold rowLen
  rw [hs, Ideal.sqrt_coe, if_neg (not_lt.mpr hnn), he]
  exact (EReal.coe_strictMono.monotone.map_max).symm

theorem allReal_normRows {R C : Nat} (x : Mat R C) (hx : AllReal x) : AllReal (normRows x) := by
  intro i
  obtain ⟨c, hc, he⟩ := rowLen_pos_real x hx (i 0)
  obtain ⟨a, ha⟩ := hx i
  refine ⟨a * (1 / c), ?_⟩
  unfold normRows
  rw [he, Ideal.div_coe hc.ne', ha, EReal.coe_mul]

theorem allReal_mm {R K C : Nat} (a : Mat R K) (b : Mat K C) (ha : AllReal a) (hb : AllReal b) : AllReal (mm a b) :=
  fun _ => isR_sum _ _ fun _ => isR_mul (ha _) (hb _)

theorem allReal_layerOf (l : Fin 2) (W : Ten 2 128 128) (hW : AllReal W) : AllReal (layerOf l W) := fun _ => hW _

theorem allReal_update {R : Nat} (relu : Bool) (agg own : Mat R 128) (Wagg Wown : Mat 128 128)
    (h1 : AllReal agg) (h2 : AllReal own) (h3 : AllReal Wagg) (h4 : AllReal Wown) :
    AllReal (update relu agg own Wagg Wown) := by
  refine allReal_normRows _ fun i => ?_
  have h := isR_add (allReal_mm _ _ h1 h3 i) (allReal_mm _ _ h2 h4 i)
  exact isR_ite (isR_max h isR_zero) h

theorem toInt_nonneg_eq (w : BitVec 32) (h0 : 0 ≤ w.toInt) : w.toInt = (w.toNat : ℤ) ∧ w.toNat < 2 ^ 31 := by
  have h := BitVec.toInt_eq_toNat_cond w
  have := w.isLt
  split at h <;> omega

theorem select_slt_zero {α : Type} (w : BitVec 32) (h0 : 0 ≤ w.toInt) (a b : α) :
    Scalar.select (IntOp.cmpi .slt w 0#32) a b = b := by
  have hc : IntOp.cmpi .slt w 0#32 = 0#1 := by
    have : w.slt 0#32 = false := by
      rw [BitVec.slt, BitVec.toInt_zero]; exact decide_eq_false (by omega)
    show BitVec.ofBool (w.slt 0#32) = 0#1
    rw [this]; rfl
  rw [hc]; exact select_zero a b

theorem toInt_eq_iff (N : Nat) (hN : 0 < N) (w : BitVec 32) (h0 : 0 ≤ w.toInt) (h1 : w.toInt < (N : ℤ)) (d : Fin N) :
    w.toInt = ((d.val : ℕ) : ℤ) ↔ lookupRow N hN w = d := by
  have h : (((lookupRow N hN w).val : ℕ) : ℤ) = w.toInt := by
    show ((min (Scalar.select (IntOp.cmpi .slt w 0#32) (IntOp.addi w (BitVec.ofNat 32 N)) w).toInt.toNat (N - 1) : ℕ) : ℤ) = _
    rw [select_slt_zero w h0]
    omega
  constructor
  · intro e; apply Fin.ext; omega
  · intro e; rw [← e]; exact h.symm

theorem flatPos_toInt (sd st : WVec 800000) (hsd : InRange 100000 sd) (hst : InRange 256 st) (e : Fin 800000) :
    (flatPos sd st e).toInt = (sd (ix1 e)).toInt * 256 + (st (ix1 e)).toInt := by
  obtain ⟨a0, a1⟩ := hsd e
  obtain ⟨b0, b1⟩ := hst e
  obtain ⟨ha, _⟩ := toInt_nonneg_eq _ a0
  obtain ⟨hb, _⟩ := toInt_nonneg_eq _ b0
  have hp : (sd (ix1 e) * 256#32 + st (ix1 e)).toNat = (sd (ix1 e)).toNat * 256 + (st (ix1 e)).toNat := by
    rw [BitVec.toNat_add, BitVec.toNat_mul]
    have : (256#32).toNat = 256 := rfl
    rw [this]; omega
  have hpi : (sd (ix1 e) * 256#32 + st (ix1 e)).toInt = (sd (ix1 e)).toInt * 256 + (st (ix1 e)).toInt := by
    have h := BitVec.toInt_eq_toNat_cond (sd (ix1 e) * 256#32 + st (ix1 e))
    split at h <;> omega
  show (Scalar.select (IntOp.cmpi .slt (sd (ix1 e) * 256#32 + st (ix1 e)) 0#32)
    (IntOp.addi (sd (ix1 e) * 256#32 + st (ix1 e)) 25600000#32) (sd (ix1 e) * 256#32 + st (ix1 e))).toInt = _
  rw [select_slt_zero _ (by omega)]
  exact hpi

abbrev rowD (sd : WVec 800000) (e : Fin 800000) : Fin 100000 := lookupRow 100000 (by decide) (sd (ix1 e))
abbrev rowT (st : WVec 800000) (e : Fin 800000) : Fin 256 := lookupRow 256 (by decide) (st (ix1 e))

theorem flatPos_eq_iff (sd st : WVec 800000) (hsd : InRange 100000 sd) (hst : InRange 256 st) (e : Fin 800000)
    (d : Fin 100000) (t : Fin 256) :
    (flatPos sd st e).toInt = ((d.val * 256 + t.val : ℕ) : ℤ) ↔ rowD sd e = d ∧ rowT st e = t := by
  rw [flatPos_toInt sd st hsd hst e, ← toInt_eq_iff 100000 (by decide) _ (hsd e).1 (hsd e).2, ← toInt_eq_iff 256 (by decide) _ (hst e).1 (hst e).2]
  obtain ⟨a0, a1⟩ := hsd e
  obtain ⟨b0, b1⟩ := hst e
  have := t.isLt
  constructor
  · intro h; constructor <;> omega
  · rintro ⟨h1, h2⟩; rw [h1, h2]; push_cast; ring

theorem real_adj_sum {E A B : Nat} (p : Fin E → Fin A) (q : Fin E → Fin B) (w : Fin E → ℝ) (x : Fin A → ℝ) (b : Fin B) :
    ∑ a, (∑ e, if p e = a ∧ q e = b then w e else 0) * x a = ∑ e, if q e = b then x (p e) * w e else 0 := by
  simp_rw [Finset.sum_mul]
  rw [Finset.sum_comm]
  refine Finset.sum_congr rfl fun e _ => ?_
  by_cases h : q e = b
  · simp [h, ite_mul, mul_comm]
  · simp [h]

theorem ereal_adj_sum {E A B : Nat} (p : Fin E → Fin A) (q : Fin E → Fin B) (w : Fin E → EReal) (x : Fin A → EReal)
    (hw : ∀ e, IsR (w e)) (hx : ∀ a, IsR (x a)) (b : Fin B) :
    ∑ a, (∑ e, if p e = a ∧ q e = b then w e else 0) * x a = ∑ e, if q e = b then x (p e) * w e else 0 := by
  choose wr hwr using hw
  choose xr hxr using hx
  obtain rfl : w = fun e => (wr e : EReal) := funext hwr
  obtain rfl : x = fun a => (xr a : EReal) := funext hxr
  simpa only [coe_sum, EReal.coe_mul, apply_ite ((↑) : ℝ → EReal), EReal.coe_zero]
    using congrArg ((↑) : ℝ → EReal) (real_adj_sum p q wr xr b)

theorem ereal_adj_sum' {E A B : Nat} (p : Fin E → Fin A) (q : Fin E → Fin B) (w : Fin E → EReal) (x : Fin B → EReal)
    (hw : ∀ e, IsR (w e)) (hx : ∀ b, IsR (x b)) (a : Fin A) :
    ∑ b, (∑ e, if p e = a ∧ q e = b then w e else 0) * x b = ∑ e, if p e = a then x (q e) * w e else 0 := by
  rw [← ereal_adj_sum q p w x hw hx a]
  refine Finset.sum_congr rfl fun b _ => ?_
  congr 1
  exact Finset.sum_congr rfl fun e _ => if_congr and_comm rfl rfl

theorem adjFlat_apply (sd st : WVec 800000) (ev : RVec 800000) (hsd : InRange 100000 sd) (hst : InRange 256 st)
    (d : Fin 100000) (t : Fin 256) :
    adjFlat sd st ev (ix2 d t) = ∑ e : Fin 800000, if rowD sd e = d ∧ rowT st e = t then ev (ix1 e) else 0 :=
  Finset.sum_congr rfl fun e _ => if_congr (flatPos_eq_iff sd st hsd hst e d t) rfl rfl

theorem allReal_adjFlat (sd st : WVec 800000) (ev : RVec 800000) (hev : AllReal ev) : AllReal (adjFlat sd st ev) :=
  fun _ => isR_sum _ _ fun _ => isR_ite (hev _) isR_zero

theorem allReal_toData (sd st : WVec 800000) (ev : RVec 800000) (hev : AllReal ev) (xt : Mat 256 128) (hxt : AllReal xt) :
    AllReal (toData sd st ev xt) :=
  fun _ => isR_sum _ _ fun _ => isR_ite (isR_mul (hxt _) (hev _)) isR_zero

theorem allReal_toTasks (sd st : WVec 800000) (ev : RVec 800000) (hev : AllReal ev) (xd : Mat 100000 128) (hxd : AllReal xd) :
    AllReal (toTasks sd st ev xd) :=
  fun _ => isR_sum _ _ fun _ => isR_ite (isR_mul (hxd _) (hev _)) isR_zero

theorem mm_adjFlat_eq_toData (sd st : WVec 800000) (ev : RVec 800000) (hev : AllReal ev) (hsd : InRange 100000 sd)
    (hst : InRange 256 st) (xt : Mat 256 128) (hxt : AllReal xt) :
    mm (adjFlat sd st ev) xt = toData sd st ev xt := by
  funext i
  obtain ⟨d, k, rfl⟩ : ∃ (d : Fin 100000) (k : Fin 128), i = ix2 d k := ⟨i 0, i 1, eq_ix2 i⟩
  show (∑ t : Fin 256, adjFlat sd st ev (ix2 d t) * xt (ix2 t k))
    = ∑ e : Fin 800000, if (sd (ix1 e)).toInt = ((d.val : ℕ) : ℤ) then xt (ix2 (rowT st e) k) * ev (ix1 e) else 0
  rw [Finset.sum_congr rfl fun t _ => by rw [adjFlat_apply sd st ev hsd hst d t]]
  rw [ereal_adj_sum' (rowD sd) (rowT st) (fun e => ev (ix1 e)) (fun t => xt (ix2 t k)) (fun e => hev _) (fun t => hxt _) d]
  exact Finset.sum_congr rfl fun e _ => if_congr (toInt_eq_iff 100000 _ _ (hsd e).1 (hsd e).2 d).symm rfl rfl

def tileEquiv : Fin 2 × Fin 25 × Fin 2000 ≃ Fin 100000 where
  toFun x := tileRow x.1 x.2.1 x.2.2
  invFun d := (⟨d.val / 50000, by have := d.isLt; omega⟩, ⟨d.val / 2000 % 25, by omega⟩, ⟨d.val % 2000, by omega⟩)
  left_inv := by
    rintro ⟨h, j, r⟩
    have := h.isLt; have := j.isLt; have := r.isLt
    refine Prod.ext (Fin.ext ?_) (Prod.ext (Fin.ext ?_) (Fin.ext ?_))
    · show ((h.val * 25 + j.val) * 2000 + r.val) / 50000 = h.val; omega
    · show ((h.val * 25 + j.val) * 2000 + r.val) / 2000 % 25 = j.val; omega
    · show ((h.val * 25 + j.val) * 2000 + r.val) % 2000 = r.val; omega
  right_inv := by
    intro d
    have := d.isLt
    apply Fin.ext
    show (d.val / 50000 * 25 + d.val / 2000 % 25) * 2000 + d.val % 2000 = d.val
    omega

theorem sum_tiles {M : Type*} [AddCommMonoid M] (f : Fin 100000 → M) :
    ∑ h : Fin 2, ∑ j : Fin 25, ∑ r : Fin 2000, f (tileRow h j r) = ∑ d, f d := by
  rw [← Equiv.sum_comp tileEquiv f, Fintype.sum_prod_type]
  refine Finset.sum_congr rfl fun h _ => ?_
  rw [Fintype.sum_prod_type]
  rfl

theorem addHalves_aggHalves (A : Mat 100000 256) (xd : Mat 100000 128) (t : Fin 256) (k : Fin 128) :
    addHalves (aggHalves A xd) (ix2 t k) = ∑ d : Fin 100000, A (ix2 d t) * xd (ix2 d k) := by
  rw [← sum_tiles (fun d => A (ix2 d t) * xd (ix2 d k)), Fin.sum_univ_two]
  rfl

theorem addHalves_eq_toTasks (sd st : WVec 800000) (ev : RVec 800000) (hev : AllReal ev) (hsd : InRange 100000 sd)
    (hst : InRange 256 st) (xd : Mat 100000 128) (hxd : AllReal xd) :
    addHalves (aggHalves (adjFlat sd st ev) xd) = toTasks sd st ev xd := by
  funext i
  obtain ⟨t, k, rfl⟩ : ∃ (t : Fin 256) (k : Fin 128), i = ix2 t k := ⟨i 0, i 1, eq_ix2 i⟩
  rw [addHalves_aggHalves]
  unfold toTasks
  rw [Finset.sum_congr rfl fun d _ => by rw [adjFlat_apply sd st ev hsd hst d t]]
  rw [ereal_adj_sum (rowD sd) (rowT st) (fun e => ev (ix1 e)) (fun d => xd (ix2 d k)) (fun e => hev _) (fun d => hxd _) t]
  exact Finset.sum_congr rfl fun e _ => if_congr (toInt_eq_iff 256 _ _ (hst e).1 (hst e).2 t).symm rfl rfl

end Cert.Spec.Bridge

namespace Cert.Spec

open Idealize.ShloMosaic Idealize.ShloMosaic.ValueIdx Cert.Spec.Bridge

theorem viaMatrix_eq_edgeByEdge (gf : Mat 100000 128) (ev : RVec 800000) (te : Mat 256 128) (Wd2t Wt2d Wsd Wst : Ten 2 128 128) (sd st : WVec 800000)
    (hgf : AllReal gf) (hev : AllReal ev) (hte : AllReal te) (h1 : AllReal Wd2t) (h2 : AllReal Wt2d) (h3 : AllReal Wsd) (h4 : AllReal Wst)
    (hsd : InRange 100000 sd) (hst : InRange 256 st) :
    viaMatrix gf ev te Wd2t Wt2d Wsd Wst sd st = edgeByEdge gf ev te Wd2t Wt2d Wsd Wst sd st := by
  have hxt0 := allReal_normRows _ hte
  have hxd0 := allReal_normRows _ hgf
  have eD := mm_adjFlat_eq_toData sd st ev hev hsd hst
  have eT := addHalves_eq_toTasks sd st ev hev hsd hst
  have hxt1 := allReal_update true _ _ _ _ (allReal_toTasks sd st ev hev _ hxd0) hxt0 (allReal_layerOf 0 _ h1) (allReal_layerOf 0 _ h4)
  have hxd1 := allReal_update true _ _ _ _ (allReal_toData sd st ev hev _ hxt0) hxd0 (allReal_layerOf 0 _ h2) (allReal_layerOf 0 _ h3)
  simp only [viaMatrix, edgeByEdge, dataStep, taskStep]
  rw [eD _ hxt0, eT _ hxd0, eD _ hxt1, eT _ hxd1]

end Cert.Spec
end
-- ==== Proof.PreFacts.lean ====
import proofs.«424668_j14448269984047_2_alg».proof.Pre_finite_inputs
import proofs.«424668_j14448269984047_2_alg».proof.Proof.Gen.Pre_finite_inputs
import proofs.«424668_j14448269984047_2_alg».proof.Proof.Spec
import Idealize.ShloMosaic.Lib.ReduceAll
import Idealize.ShloMosaic.Lib.StableHlo.Predicate
import Idealize.ShloMosaic.Lib.ValueIdx

namespace Cert.PreFacts

open Idealize.ShloMosaic Idealize.ShloMosaic.ValueIdx Cert.Pre_finite_inputs

local instance scalarIdxSubsingleton : Subsingleton S_.Idx := ⟨fun a b => funext fun d => d.elim0⟩

theorem inf_word : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_elem (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h' : BitVec.ofBool (decide (max x (-x) < Ideal.ofBits .f32 0x7F800000#32)) = 1#1 := h
  rw [StableHlo.Predicate.ofBool_eq_one_iff, decide_eq_true_eq, inf_word] at h'
  exact h'

theorem allReal_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ix0 = 1#1) :
    Cert.Spec.AllReal x := fun i =>
  real_of_elem (x i) (Host.reduce_andi_all _ _ hr h0 ix0 e i)

theorem inRange_of_all (N : Nat) (hN : N < 2 ^ 31) (w : IVec S800000 32)
    (hb : S_.BroadcastsInDim S800000 (![] : Fin 0 → Fin S800000.rank)) (hr : S800000.ReducesTo [0] S_)
    (h0 : 0 < S_.numel)
    (e : Host.reduce IntOp.andi
          (andi (cmpi .sge w (broadcastInDim S800000 ![] hb (constantI S_ 32 0#32)))
                (cmpi .slt w (broadcastInDim S800000 ![] hb (constantI S_ 32 (BitVec.ofNat 32 N)))))
          (constantI S_ 1 1#1) hr h0 ix0 = 1#1) :
    Cert.Spec.InRange N w := fun k => by
  have hk := Host.reduce_andi_all _ _ hr h0 ix0 e (ix1 k)
  have hk' : IntOp.andi (IntOp.cmpi .sge (w (ix1 k)) 0#32) (IntOp.cmpi .slt (w (ix1 k)) (BitVec.ofNat 32 N)) = 1#1 := hk
  rw [IntOp.andi_eq_one, IntOp.cmpi_sge, IntOp.cmpi_slt, StableHlo.Predicate.toInt_ofNat_small N hN] at hk'
  exact ⟨by simpa using hk'.1, hk'.2⟩

theorem andi_at {s : Shape} {w : Nat} (x y : IVec s w) (i : s.Idx) : andi x y i = IntOp.andi (x i) (y i) := rfl

theorem facts_of_pre [Cert.Pre_finite_inputs.Facts] (a0 : FVec Ideal S100000x128 .f32) (a1 : FVec Ideal S800000 .f32)
    (a2 : FVec Ideal S256x128 .f32) (a3 a4 a5 a6 : FVec Ideal S2x128x128 .f32) (a7 a8 : IVec S800000 32)
    (h : Cert.Pre_finite_inputs.fn (F := Ideal) a0 a1 a2 a3 a4 a5 a6 a7 a8 = fun _ => 1#1) :
    Cert.Spec.AllReal a0 ∧ Cert.Spec.AllReal a1 ∧ Cert.Spec.AllReal a2 ∧ Cert.Spec.AllReal a3 ∧ Cert.Spec.AllReal a4 ∧
      Cert.Spec.AllReal a5 ∧ Cert.Spec.AllReal a6 ∧ Cert.Spec.InRange 100000 a7 ∧ Cert.Spec.InRange 256 a8 := by
  have e := congrFun h ix0
  dsimp only [fn, fn_part1, fn_part2] at e
  simp only [andi_at, IntOp.andi_eq_one] at e
  obtain ⟨⟨⟨⟨⟨⟨⟨⟨e0, e1⟩, e2⟩, e3⟩, e4⟩, e5⟩, e6⟩, e7⟩, e8⟩ := e
  exact ⟨allReal_of_all a0 _ _ _ e0, allReal_of_all a1 _ _ _ e1, allReal_of_all a2 _ _ _ e2, allReal_of_all a3 _ _ _ e3,
    allReal_of_all a4 _ _ _ e4, allReal_of_all a5 _ _ _ e5, allReal_of_all a6 _ _ _ e6,
    inRange_of_all 100000 (by decide) a7 _ _ _ e7, inRange_of_all 256 (by decide) a8 _ _ _ e8⟩

end Cert.PreFacts
-- ==== Proof.lean ====
import proofs.«424668_j14448269984047_2_alg».proof.Defs
import proofs.«424668_j14448269984047_2_alg».proof.Proof.Gen.Kernel
import proofs.«424668_j14448269984047_2_alg».proof.Proof.Gen.KernelIdeal
import proofs.«424668_j14448269984047_2_alg».proof.Proof.Gen.ReferenceIdeal
import proofs.«424668_j14448269984047_2_alg».proof.Proof.Gen.Pre_finite_inputs
import proofs.«424668_j14448269984047_2_alg».proof.Proof.K.Run
import proofs.«424668_j14448269984047_2_alg».proof.Proof.KI.Values
import proofs.«424668_j14448269984047_2_alg».proof.Proof.RefIs
import proofs.«424668_j14448269984047_2_alg».proof.Proof.Bridge
import proofs.«424668_j14448269984047_2_alg».proof.Proof.PreFacts

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2.2.2) (Cert.ReferenceIdeal.RefValue.run_spec m ρ)

-- On equal arguments that are finite with edge ends in range, the edge-by-edge results are those through the weight matrix.
theorem algebraic : Cert.algebraic_KernelIdeal_ReferenceIdeal := by
  intro m ρ m' ρ' hpre hagree
  refine ⟨fun c => (Cert.KernelIdeal.Val.K m c).pred, fun c => (Cert.KernelIdeal.Val.K m c).dataEmb,
    fun c => (Cert.KernelIdeal.Val.K m c).taskEmb, Cert.KernelIdeal.Val.run_values m ρ, ?_⟩
  refine (θ_run Cert.ReferenceIdeal.defs _ _).mono (fun _ h c => ?_) (Cert.ReferenceIdeal.RefValue.run_spec m' ρ')
  obtain ⟨a0, a1, a2, a3, a4, a5, a6, a7, a8⟩ := hagree c
  obtain ⟨f0, f1, f2, f3, f4, f5, f6, f7, f8⟩ := Cert.PreFacts.facts_of_pre _ _ _ _ _ _ _ _ _ (hpre c)
  have hE : Cert.ReferenceIdeal.RefValue.E m' c = Cert.KernelIdeal.Val.K m c := by
    show Cert.Spec.edgeByEdge _ _ _ _ _ _ _ _ _ = _
    rw [a0, a1, a2, a3, a4, a5, a6, a7, a8]
    exact (Cert.Spec.viaMatrix_eq_edgeByEdge _ _ _ _ _ _ _ _ _ f0 f1 f2 f3 f4 f5 f6 f7 f8).symm
  obtain ⟨hp, hd, ht, hargs⟩ := h c
  exact ⟨hp.trans (congrArg Cert.Spec.Results.pred hE), hd.trans (congrArg Cert.Spec.Results.dataEmb hE),
    ht.trans (congrArg Cert.Spec.Results.taskEmb hE), hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
